-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7168 : Shape := ⟨2, ![4096, 7168]⟩
abbrev S7168x1536 : Shape := ⟨2, ![7168, 1536]⟩
abbrev S1536x24576 : Shape := ⟨2, ![1536, 24576]⟩
abbrev S7168x576 : Shape := ⟨2, ![7168, 576]⟩
abbrev S4096x64 : Shape := ⟨2, ![4096, 64]⟩
abbrev S1536 : Shape := ⟨1, ![1536]⟩
abbrev S512 : Shape := ⟨1, ![512]⟩
abbrev S_ : Shape := ⟨0, ![]⟩

class Facts : Prop where
  bcast_S_S4096x7168 : S_.BroadcastsInDim S4096x7168 (![] : Fin 0 → Fin S4096x7168.rank)
  reducesTo_S4096x7168_S_d0_1 : S4096x7168.ReducesTo [0, 1] S_
  h_S_ : 0 < S_.numel
  bcast_S_S7168x1536 : S_.BroadcastsInDim S7168x1536 (![] : Fin 0 → Fin S7168x1536.rank)
  reducesTo_S7168x1536_S_d0_1 : S7168x1536.ReducesTo [0, 1] S_
  bcast_S_S1536x24576 : S_.BroadcastsInDim S1536x24576 (![] : Fin 0 → Fin S1536x24576.rank)
  reducesTo_S1536x24576_S_d0_1 : S1536x24576.ReducesTo [0, 1] S_
  bcast_S_S7168x576 : S_.BroadcastsInDim S7168x576 (![] : Fin 0 → Fin S7168x576.rank)
  reducesTo_S7168x576_S_d0_1 : S7168x576.ReducesTo [0, 1] S_
  bcast_S_S4096x64 : S_.BroadcastsInDim S4096x64 (![] : Fin 0 → Fin S4096x64.rank)
  reducesTo_S4096x64_S_d0_1 : S4096x64.ReducesTo [0, 1] S_
  bcast_S_S1536 : S_.BroadcastsInDim S1536 (![] : Fin 0 → Fin S1536.rank)
  reducesTo_S1536_S_d0 : S1536.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S4096x64 .f32) (main_arg5 : FVec F S4096x64 .f32) (main_arg6 : FVec F S1536 .f32) (main_arg7 : FVec F S512 .f32) (main_v13 : IVec S_ 1) (main_v16 : IVec S7168x576 1) : IVec S_ 1 :=
  let main_c_5 : IVec S_ 1 := constantI S_ 1 1#1
  let main_v17 : IVec S_ 1 := (fun x v => Host.reduce IntOp.andi x v reducesTo_S7168x576_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S4096x64 .f32 := Host.absf main_arg5
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_v33

def fn {F : FTy → Type} [FloatOps F] (main_arg0 : FVec F S4096x7168 .f32) (main_arg1 : FVec F S7168x1536 .f32) (main_arg2 : FVec F S1536x24576 .f32) (main_arg3 : FVec F S7168x576 .f32) (main_arg4 : FVec F S4096x64 .f32) (main_arg5 : FVec F S4096x64 .f32) (main_arg6 : FVec F S1536 .f32) (main_arg7 : FVec F S512 .f32) : IVec S_ 1 :=
  let main_v0 : FVec F S4096x7168 .f32 := Host.absf main_arg0
  let main_cst : FVec F S_ .f32 := constant S_ .f32 0x7F800000#32
  let main_v1 : FVec F S4096x7168 .f32 := broadcastInDim S4096x7168 ![] bcast_S_S4096x7168 main_cst
  let main_v2 : IVec S4096x7168 1 := cmpf .olt main_v0 main_v1
  let main_c : IVec S_ 1 := constantI S_ 1 1#1
  let main_v3 : IVec S_ 1 := (fun x v => Host.reduce IntOp.andi x v reducesTo_S4096x7168_S_d0_1 h_S_) main_v2 main_c
  let main_v4 : FVec F S7168x1536 .f32 := Host.absf main_arg1
  let main_cst_0 : FVec F S_ .f32 := constant S_ .f32 0x7F800000#32
  let main_v5 : FVec F S7168x1536 .f32 := broadcastInDim S7168x1536 ![] bcast_S_S7168x1536 main_cst_0
  let main_v6 : IVec S7168x1536 1 := cmpf .olt main_v4 main_v5
  let main_c_1 : IVec S_ 1 := constantI S_ 1 1#1
  let main_v7 : IVec S_ 1 := (fun x v => Host.reduce IntOp.andi x v reducesTo_S7168x1536_S_d0_1 h_S_) main_v6 main_c_1
  let main_v8 : IVec S_ 1 := andi main_v3 main_v7
  let main_v9 : FVec F S1536x24576 .f32 := Host.absf main_arg2
  let main_cst_2 : FVec F S_ .f32 := constant S_ .f32 0x7F800000#32
  let main_v10 : FVec F S1536x24576 .f32 := broadcastInDim S1536x24576 ![] bcast_S_S1536x24576 main_cst_2
  let main_v11 : IVec S1536x24576 1 := cmpf .olt main_v9 main_v10
  let main_c_3 : IVec S_ 1 := constantI S_ 1 1#1
  let main_v12 : IVec S_ 1 := (fun x v => Host.reduce IntOp.andi x v reducesTo_S1536x24576_S_d0_1 h_S_) main_v11 main_c_3
  let main_v13 : IVec S_ 1 := andi main_v8 main_v12
  let main_v14 : FVec F S7168x576 .f32 := Host.absf main_arg3
  let main_cst_4 : FVec F S_ .f32 := constant S_ .f32 0x7F800000#32
  let main_v15 : FVec F S7168x576 .f32 := broadcastInDim S7168x576 ![] bcast_S_S7168x576 main_cst_4
  let main_v16 : IVec S7168x576 1 := cmpf .olt main_v14 main_v15
  fn_part1 (F := F) main_arg4 main_arg5 main_arg6 main_arg7 main_v13 main_v16
-- ==== Kernel.lean ====
abbrev S4096x7168 : Shape := ⟨2, ![4096, 7168]⟩
abbrev S7168x1536 : Shape := ⟨2, ![7168, 1536]⟩
abbrev S1536x24576 : Shape := ⟨2, ![1536, 24576]⟩
abbrev S7168x576 : Shape := ⟨2, ![7168, 576]⟩
abbrev S4096x64 : Shape := ⟨2, ![4096, 64]⟩
abbrev S1536 : Shape := ⟨1, ![1536]⟩
abbrev S512 : Shape := ⟨1, ![512]⟩
abbrev S4096x1536 : Shape := ⟨2, ![4096, 1536]⟩
abbrev S1024x1792 : Shape := ⟨2, ![1024, 1792]⟩
abbrev S1792x1536 : Shape := ⟨2, ![1792, 1536]⟩
abbrev S1024x1536 : Shape := ⟨2, ![1024, 1536]⟩
abbrev S1024 : Shape := ⟨1, ![1024]⟩
abbrev S1024x1 : Shape := ⟨2, ![1024, 1]⟩
abbrev S1x1536 : Shape := ⟨2, ![1, 1536]⟩
abbrev S4096x24576 : Shape := ⟨2, ![4096, 24576]⟩
abbrev S1536x3072 : Shape := ⟨2, ![1536, 3072]⟩
abbrev S1024x64 : Shape := ⟨2, ![1024, 64]⟩
abbrev S1024x3072 : Shape := ⟨2, ![1024, 3072]⟩
abbrev S1024x16x192 : Shape := ⟨3, ![1024, 16, 192]⟩
abbrev S1024x16x128 : Shape := ⟨3, ![1024, 16, 128]⟩
abbrev S1024x16x64 : Shape := ⟨3, ![1024, 16, 64]⟩
abbrev S1024x1x64 : Shape := ⟨3, ![1024, 1, 64]⟩
abbrev S1024x16x32 : Shape := ⟨3, ![1024, 16, 32]⟩
abbrev S4096x576 : Shape := ⟨2, ![4096, 576]⟩
abbrev S1792x576 : Shape := ⟨2, ![1792, 576]⟩
abbrev S1024x576 : Shape := ⟨2, ![1024, 576]⟩
abbrev S1024x512 : Shape := ⟨2, ![1024, 512]⟩
abbrev S1x512 : Shape := ⟨2, ![1, 512]⟩
abbrev S1024x32 : Shape := ⟨2, ![1024, 32]⟩
abbrev S4096x25152 : Shape := ⟨2, ![4096, 25152]⟩

abbrev nBuf : Space → Nat
  | .hbm => 15
  | .vmem => 30
  | .smem => 0
  | _ => 0

abbrev bufTy : (tb : Table) → Fin (tcTables nBuf tb) → BufTy
  | .hbm, ⟨0, _⟩ => ⟨S4096x7168, .f32⟩
  | .hbm, ⟨1, _⟩ => ⟨S7168x1536, .f32⟩
  | .hbm, ⟨2, _⟩ => ⟨S1536x24576, .f32⟩
  | .hbm, ⟨3, _⟩ => ⟨S7168x576, .f32⟩
  | .hbm, ⟨4, _⟩ => ⟨S4096x64, .f32⟩
  | .hbm, ⟨5, _⟩ => ⟨S4096x64, .f32⟩
  | .hbm, ⟨6, _⟩ => ⟨S1536, .f32⟩
  | .hbm, ⟨7, _⟩ => ⟨S512, .f32⟩
  | .hbm, ⟨8, _⟩ => ⟨S7168x1536, .bf16⟩
  | .hbm, ⟨9, _⟩ => ⟨S1536x24576, .bf16⟩
  | .hbm, ⟨10, _⟩ => ⟨S7168x576, .bf16⟩
  | .hbm, ⟨11, _⟩ => ⟨S4096x1536, .bf16⟩
  | .hbm, ⟨12, _⟩ => ⟨S4096x24576, .f32⟩
  | .hbm, ⟨13, _⟩ => ⟨S4096x576, .f32⟩
  | .hbm, ⟨14, _⟩ => ⟨S4096x25152, .f32⟩
  | .local _ .vmem, ⟨0, _⟩ => ⟨S1024x1792, .f32⟩
  | .local _ .vmem, ⟨1, _⟩ => ⟨S1024x1792, .f32⟩
  | .local _ .vmem, ⟨2, _⟩ => ⟨S1792x1536, .bf16⟩
  | .local _ .vmem, ⟨3, _⟩ => ⟨S1792x1536, .bf16⟩
  | .local _ .vmem, ⟨4, _⟩ => ⟨S1536, .f32⟩
  | .local _ .vmem, ⟨5, _⟩ => ⟨S1024x1536, .bf16⟩
  | .local _ .vmem, ⟨6, _⟩ => ⟨S1024x1536, .bf16⟩
  | .local _ .vmem, ⟨7, _⟩ => ⟨S1024x1536, .f32⟩
  | .local _ .vmem, ⟨8, _⟩ => ⟨S1024x1536, .bf16⟩
  | .local _ .vmem, ⟨9, _⟩ => ⟨S1024x1536, .bf16⟩
  | .local _ .vmem, ⟨10, _⟩ => ⟨S1536x3072, .bf16⟩
  | .local _ .vmem, ⟨11, _⟩ => ⟨S1536x3072, .bf16⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x3072, .f32⟩
  | .local _ .vmem, ⟨17, _⟩ => ⟨S1024x3072, .f32⟩
  | .local _ .vmem, ⟨18, _⟩ => ⟨S1024x1792, .f32⟩
  | .local _ .vmem, ⟨19, _⟩ => ⟨S1024x1792, .f32⟩
  | .local _ .vmem, ⟨20, _⟩ => ⟨S1792x576, .bf16⟩
  | .local _ .vmem, ⟨21, _⟩ => ⟨S1792x576, .bf16⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S512, .f32⟩
  | .local _ .vmem, ⟨27, _⟩ => ⟨S1024x576, .f32⟩
  | .local _ .vmem, ⟨28, _⟩ => ⟨S1024x576, .f32⟩
  | .local _ .vmem, ⟨29, _⟩ => ⟨S1024x576, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1792x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1536x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1792 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1792x576 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x576 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bitsLt_bf16_f32 : FTy.bits .bf16 < FTy.bits .f32
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x1792_S1024x1792_0_0 : ∀ a, (![0, 0] : Fin 2 → Nat) a + S1024x1792.size a ≤ S1024x1792.size a
  h_S1024x1792 : 0 < S1024x1792.numel
  inb_S1792x1536_S1792x1536_0_0 : ∀ a, (![0, 0] : Fin 2 → Nat) a + S1792x1536.size a ≤ S1792x1536.size a
  h_S1792x1536 : 0 < S1792x1536.numel
  shapeCasts_S1792x1536_S1792x1536 : S1792x1536.ShapeCasts S1792x1536
  reduces_S1024x1536_S1024 : S1024x1536.Reduces [1] S1024
  shapeCasts_S1024_S1024x1 : S1024.ShapeCasts S1024x1
  broadcasts_S1024x1_S1024x1536 : S1024x1.Broadcasts S1024x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S1024x1536 : S1x1536.Broadcasts S1024x1536
  packedbf16_S1024x1536_S1024x1536_0_0 : (Rect.unit (s := S1024x1536) ![0, 0] S1024x1536.size inb_S1024x1536_S1024x1536_0_0).PackedRows (EltTy.packing .bf16)
  inb_S1536x3072_S1536x3072_0_0 : ∀ a, (![0, 0] : Fin 2 → Nat) a + S1536x3072.size a ≤ S1536x3072.size a
  h_S1536x3072 : 0 < S1536x3072.numel
  shapeCasts_S1536x3072_S1536x3072 : S1536x3072.ShapeCasts S1536x3072
  shapeCasts_S1024x3072_S1024x16x192 : S1024x3072.ShapeCasts S1024x16x192
  slices_S1024x16x192_o0_0_0_S1024x16x128 : S1024x16x192.Slices ![0, 0, 0] S1024x16x128
  slices_S1024x16x192_o0_0_128_S1024x16x64 : S1024x16x192.Slices ![0, 0, 128] S1024x16x64
  inb_S1024x64_S1024x64_0_0 : ∀ a, (![0, 0] : Fin 2 → Nat) a + S1024x64.size a ≤ S1024x64.size a
  h_S1024x64 : 0 < S1024x64.numel
  shapeCasts_S1024x64_S1024x1x64 : S1024x64.ShapeCasts S1024x1x64
  slices_S1024x16x64_o0_0_0_S1024x16x32 : S1024x16x64.Slices ![0, 0, 0] S1024x16x32
  slices_S1024x16x64_o0_0_32_S1024x16x32 : S1024x16x64.Slices ![0, 0, 32] S1024x16x32
  concatenates_S1024x16x32_S1024x16x32_S1024x16x64_d2 : Shape.Concatenates [S1024x16x32, S1024x16x32] S1024x16x64 2
  broadcasts_S1024x1x64_S1024x16x64 : S1024x1x64.Broadcasts S1024x16x64
  concatenates_S1024x16x128_S1024x16x64_S1024x16x192_d2 : Shape.Concatenates [S1024x16x128, S1024x16x64] S1024x16x192 2
  shapeCasts_S1024x16x192_S1024x3072 : S1024x16x192.ShapeCasts S1024x3072
  inb_S1024x3072_S1024x3072_0_0 : ∀ a, (![0, 0] : Fin 2 → Nat) a + S1024x3072.size a ≤ S1024x3072.size a
  h_S1024x3072 : 0 < S1024x3072.numel
  inb_S1024x576_S1024x576_0_0 : ∀ a, (![0, 0] : Fin 2 → Nat) a + S1024x576.size a ≤ S1024x576.size a
  h_S1024x576 : 0 < S1024x576.numel
  shapeCasts_S1024x576_S1024x576 : S1024x576.ShapeCasts S1024x576
  inb_S1792x576_S1792x576_0_0 : ∀ a, (![0, 0] : Fin 2 → Nat) a + S1792x576.size a ≤ S1792x576.size a
  h_S1792x576 : 0 < S1792x576.numel
  shapeCasts_S1792x576_S1792x576 : S1792x576.ShapeCasts S1792x576
  slices_S1024x576_o0_0_S1024x512 : S1024x576.Slices ![0, 0] S1024x512
  slices_S1024x576_o0_512_S1024x64 : S1024x576.Slices ![0, 512] S1024x64
  reduces_S1024x512_S1024 : S1024x512.Reduces [1] S1024
  broadcasts_S1024x1_S1024x512 : S1024x1.Broadcasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  slices_S1024x64_o0_0_S1024x32 : S1024x64.Slices ![0, 0] S1024x32
  slices_S1024x64_o0_32_S1024x32 : S1024x64.Slices ![0, 32] S1024x32
  concatenates_S1024x32_S1024x32_S1024x64_d1 : Shape.Concatenates [S1024x32, S1024x32] S1024x64 1
  concatenates_S1024x512_S1024x64_S1024x576_d1 : Shape.Concatenates [S1024x512, S1024x64] S1024x576 1
  concatenates_S4096x24576_S4096x576_S4096x25152_d1 : Shape.Concatenates [S4096x24576, S4096x576] S4096x25152 1
  dot_S1024x1792_S1792x1536_S1024x1536_1_0_0_1_n_n_wf : DotDims.WF S1024x1792 S1792x1536 S1024x1536 [1] [0] [0] [1] [] []
  dot_S1024x1536_S1536x3072_S1024x3072_1_0_0_1_n_n_wf : DotDims.WF S1024x1536 S1536x3072 S1024x3072 [1] [0] [0] [1] [] []
  dot_S1024x1792_S1792x576_S1024x576_1_0_0_1_n_n_wf : DotDims.WF S1024x1792 S1792x576 S1024x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1792.size a ≤ S4096x7168.size a
  hwx0_0 : ∀ i : grid0.Coords, EltTy.bits .f32 = 32 ∨ (Rect.block (s := S4096x7168) S1024x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1536.size a ≤ S7168x1536.size a
  hwx0_1 : ∀ i : grid0.Coords, EltTy.bits .bf16 = 32 ∨ (Rect.block (s := S7168x1536) S1792x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S4096x1536.size a
  hwx0_3 : ∀ i : grid0.Coords, EltTy.bits .bf16 = 32 ∨ (Rect.block (s := S4096x1536) S1024x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1536.size a ≤ S4096x1536.size a
  hwx1_0 : ∀ i : grid1.Coords, EltTy.bits .bf16 = 32 ∨ (Rect.block (s := S4096x1536) S1024x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x3072.size a ≤ S1536x24576.size a
  hwx1_1 : ∀ i : grid1.Coords, EltTy.bits .bf16 = 32 ∨ (Rect.block (s := S1536x24576) S1536x3072.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S4096x64.size a
  hwx1_2 : ∀ i : grid1.Coords, EltTy.bits .f32 = 32 ∨ (Rect.block (s := S4096x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S4096x64.size a
  hwx1_3 : ∀ i : grid1.Coords, EltTy.bits .f32 = 32 ∨ (Rect.block (s := S4096x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x3072.size a ≤ S4096x24576.size a
  hwx1_4 : ∀ i : grid1.Coords, EltTy.bits .f32 = 32 ∨ (Rect.block (s := S4096x24576) S1024x3072.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1792.size a ≤ S4096x7168.size a
  hwx2_0 : ∀ i : grid2.Coords, EltTy.bits .f32 = 32 ∨ (Rect.block (s := S4096x7168) S1024x1792.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1792x576.size a ≤ S7168x576.size a
  hwx2_1 : ∀ i : grid2.Coords, EltTy.bits .bf16 = 32 ∨ (Rect.block (s := S7168x576) S1792x576.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S4096x64.size a
  hwx2_2 : ∀ i : grid2.Coords, EltTy.bits .f32 = 32 ∨ (Rect.block (s := S4096x64) S1024x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S4096x64.size a
  hwx2_3 : ∀ i : grid2.Coords, EltTy.bits .f32 = 32 ∨ (Rect.block (s := S4096x64) S1024x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x576.size a ≤ S4096x576.size a
  hwx2_5 : ∀ i : grid2.Coords, EltTy.bits .f32 = 32 ∨ (Rect.block (s := S4096x576) S1024x576.size (cc2_transform_5 i) (hinb2_5 i)).WholeWords (EltTy.packing .f32)

variable [Facts₀]

def dot_S1024x1792_S1792x1536_S1024x1536_1_0_0_1_n_n : DotDims S1024x1792 S1792x1536 S1024x1536 where
  lhsContracting := [1]
  rhsContracting := [0]
  lhsNonContracting := [0]
  rhsNonContracting := [1]
  lhsBatch := []
  rhsBatch := []
  wf := dot_S1024x1792_S1792x1536_S1024x1536_1_0_0_1_n_n_wf
def dot_S1024x1536_S1536x3072_S1024x3072_1_0_0_1_n_n : DotDims S1024x1536 S1536x3072 S1024x3072 where
  lhsContracting := [1]
  rhsContracting := [0]
  lhsNonContracting := [0]
  rhsNonContracting := [1]
  lhsBatch := []
  rhsBatch := []
  wf := dot_S1024x1536_S1536x3072_S1024x3072_1_0_0_1_n_n_wf
def dot_S1024x1792_S1792x576_S1024x576_1_0_0_1_n_n : DotDims S1024x1792 S1792x576 S1024x576 where
  lhsContracting := [1]
  rhsContracting := [0]
  lhsNonContracting := [0]
  rhsNonContracting := [1]
  lhsBatch := []
  rhsBatch := []
  wf := dot_S1024x1792_S1792x576_S1024x576_1_0_0_1_n_n_wf

abbrev win0_0 : Pipeline.Window sig grid0 :=
  Pipeline.Window.ofSpec (Memref.whole main_arg0) S1024x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1792x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1536x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x3072.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1024x1792.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1792x576.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S1024x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1024x576.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4096x7168 : Shape := ⟨2, ![4096, 7168]⟩
abbrev S7168x1536 : Shape := ⟨2, ![7168, 1536]⟩
abbrev S1536x24576 : Shape := ⟨2, ![1536, 24576]⟩
abbrev S7168x576 : Shape := ⟨2, ![7168, 576]⟩
abbrev S4096x64 : Shape := ⟨2, ![4096, 64]⟩
abbrev S1536 : Shape := ⟨1, ![1536]⟩
abbrev S512 : Shape := ⟨1, ![512]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1536 : Shape := ⟨2, ![1, 1536]⟩
abbrev S4096x24576 : Shape := ⟨2, ![4096, 24576]⟩
abbrev S4096x128x192 : Shape := ⟨3, ![4096, 128, 192]⟩
abbrev S4096x128x128 : Shape := ⟨3, ![4096, 128, 128]⟩
abbrev S4096x128x64 : Shape := ⟨3, ![4096, 128, 64]⟩
abbrev S4096x1x64 : Shape := ⟨3, ![4096, 1, 64]⟩
abbrev S4096x128x32 : Shape := ⟨3, ![4096, 128, 32]⟩
abbrev S4096x576 : Shape := ⟨2, ![4096, 576]⟩
abbrev S4096x512 : Shape := ⟨2, ![4096, 512]⟩
abbrev S1x512 : Shape := ⟨2, ![1, 512]⟩
abbrev S4096x32 : Shape := ⟨2, ![4096, 32]⟩
abbrev S4096x25152 : Shape := ⟨2, ![4096, 25152]⟩

abbrev nBuf : Space → Nat
  | .hbm => 69
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S7168x1536, .f32⟩
  | .hbm, ⟨2, _⟩ => ⟨S1536x24576, .f32⟩
  | .hbm, ⟨3, _⟩ => ⟨S7168x576, .f32⟩
  | .hbm, ⟨4, _⟩ => ⟨S4096x64, .f32⟩
  | .hbm, ⟨5, _⟩ => ⟨S4096x64, .f32⟩
  | .hbm, ⟨6, _⟩ => ⟨S1536, .f32⟩
  | .hbm, ⟨7, _⟩ => ⟨S512, .f32⟩
  | .hbm, ⟨8, _⟩ => ⟨S4096x1536, .f32⟩
  | .hbm, ⟨9, _⟩ => ⟨S4096x1536, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1536, .f32⟩
  | .hbm, ⟨21, _⟩ => ⟨S4096x1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x24576, .f32⟩
  | .hbm, ⟨26, _⟩ => ⟨S4096x128x192, .f32⟩
  | .hbm, ⟨27, _⟩ => ⟨S4096x128x128, .f32⟩
  | .hbm, ⟨28, _⟩ => ⟨S4096x128x64, .f32⟩
  | .hbm, ⟨29, _⟩ => ⟨S4096x1x64, .f32⟩
  | .hbm, ⟨30, _⟩ => ⟨S4096x1x64, .f32⟩
  | .hbm, ⟨31, _⟩ => ⟨S4096x128x32, .f32⟩
  | .hbm, ⟨32, _⟩ => ⟨S4096x128x32, .f32⟩
  | .hbm, ⟨33, _⟩ => ⟨S4096x128x32, .f32⟩
  | .hbm, ⟨34, _⟩ => ⟨S4096x128x64, .f32⟩
  | .hbm, ⟨35, _⟩ => ⟨S4096x128x64, .f32⟩
  | .hbm, ⟨36, _⟩ => ⟨S4096x128x64, .f32⟩
  | .hbm, ⟨37, _⟩ => ⟨S4096x128x64, .f32⟩
  | .hbm, ⟨38, _⟩ => ⟨S4096x128x64, .f32⟩
  | .hbm, ⟨39, _⟩ => ⟨S4096x128x64, .f32⟩
  | .hbm, ⟨40, _⟩ => ⟨S4096x128x192, .f32⟩
  | .hbm, ⟨41, _⟩ => ⟨S4096x576, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x512, .f32⟩
  | .hbm, ⟨55, _⟩ => ⟨S4096x512, .f32⟩
  | .hbm, ⟨56, _⟩ => ⟨S1x512, .f32⟩
  | .hbm, ⟨57, _⟩ => ⟨S4096x512, .f32⟩
  | .hbm, ⟨58, _⟩ => ⟨S4096x512, .f32⟩
  | .hbm, ⟨59, _⟩ => ⟨S4096x64, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x24576, .f32⟩
  | .hbm, ⟨68, _⟩ => ⟨S4096x25152, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]

class Facts₀ : Prop where
  reducesTo_S4096x1536_S4096_d1 : S4096x1536.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1536_0_1 : S4096x1.BroadcastsInDim S4096x1536 (![0, 1] : Fin 2 → Fin S4096x1536.rank)
  bcast_S1536_S1x1536_1 : S1536.BroadcastsInDim S1x1536 (![1] : Fin 1 → Fin S1x1536.rank)
  bcast_S1x1536_S4096x1536_0_1 : S1x1536.BroadcastsInDim S4096x1536 (![0, 1] : Fin 2 → Fin S4096x1536.rank)
  shapeCasts_S4096x24576_S4096x128x192 : S4096x24576.ShapeCasts S4096x128x192
  slices_S4096x128x192_S4096x128x128_0_0_0 : S4096x128x192.Slices ![0, 0, 0] S4096x128x128
  slices_S4096x128x192_S4096x128x64_0_0_128 : S4096x128x192.Slices ![0, 0, 128] S4096x128x64
  bcast_S4096x64_S4096x1x64_0_2 : S4096x64.BroadcastsInDim S4096x1x64 (![0, 2] : Fin 2 → Fin S4096x1x64.rank)
  slices_S4096x128x64_S4096x128x32_0_0_0 : S4096x128x64.Slices ![0, 0, 0] S4096x128x32
  slices_S4096x128x64_S4096x128x32_0_0_32 : S4096x128x64.Slices ![0, 0, 32] S4096x128x32
  concatenates_S4096x128x32_S4096x128x32_S4096x128x64_d2 : Shape.Concatenates [S4096x128x32, S4096x128x32] S4096x128x64 2
  bcast_S4096x1x64_S4096x128x64_0_1_2 : S4096x1x64.BroadcastsInDim S4096x128x64 (![0, 1, 2] : Fin 3 → Fin S4096x128x64.rank)
  concatenates_S4096x128x128_S4096x128x64_S4096x128x192_d2 : Shape.Concatenates [S4096x128x128, S4096x128x64] S4096x128x192 2
  slices_S4096x576_S4096x512_0_0 : S4096x576.Slices ![0, 0] S4096x512
  reducesTo_S4096x512_S4096_d1 : S4096x512.ReducesTo [1] S4096
  bcast_S4096x1_S4096x512_0_1 : S4096x1.BroadcastsInDim S4096x512 (![0, 1] : Fin 2 → Fin S4096x512.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S4096x576_S4096x64_0_512 : S4096x576.Slices ![0, 512] S4096x64
  slices_S4096x64_S4096x32_0_0 : S4096x64.Slices ![0, 0] S4096x32
  slices_S4096x64_S4096x32_0_32 : S4096x64.Slices ![0, 32] S4096x32
  concatenates_S4096x32_S4096x32_S4096x64_d1 : Shape.Concatenates [S4096x32, S4096x32] S4096x64 1
  shapeCasts_S4096x128x192_S4096x24576 : S4096x128x192.ShapeCasts S4096x24576
  concatenates_S4096x24576_S4096x512_S4096x64_S4096x25152_d1 : Shape.Concatenates [S4096x24576, S4096x512, S4096x64] S4096x25152 1
  dot_S4096x7168_S7168x1536_S4096x1536_1_0_0_1_n_n_wf : DotDims.WF S4096x7168 S7168x1536 S4096x1536 [1] [0] [0] [1] [] []
  dot_S4096x1536_S1536x24576_S4096x24576_1_0_0_1_n_n_wf : DotDims.WF S4096x1536 S1536x24576 S4096x24576 [1] [0] [0] [1] [] []
  dot_S4096x7168_S7168x576_S4096x576_1_0_0_1_n_n_wf : DotDims.WF S4096x7168 S7168x576 S4096x576 [1] [0] [0] [1] [] []

variable [Facts₀]

def dot_S4096x7168_S7168x1536_S4096x1536_1_0_0_1_n_n : DotDims S4096x7168 S7168x1536 S4096x1536 where
  lhsContracting := [1]
  rhsContracting := [0]
  lhsNonContracting := [0]
  rhsNonContracting := [1]
  lhsBatch := []
  rhsBatch := []
  wf := dot_S4096x7168_S7168x1536_S4096x1536_1_0_0_1_n_n_wf
def dot_S4096x1536_S1536x24576_S4096x24576_1_0_0_1_n_n : DotDims S4096x1536 S1536x24576 S4096x24576 where
  lhsContracting := [1]
  rhsContracting := [0]
  lhsNonContracting := [0]
  rhsNonContracting := [1]
  lhsBatch := []
  rhsBatch := []
  wf := dot_S4096x1536_S1536x24576_S4096x24576_1_0_0_1_n_n_wf
def dot_S4096x7168_S7168x576_S4096x576_1_0_0_1_n_n : DotDims S4096x7168 S7168x576 S4096x576 where
  lhsContracting := [1]
  rhsContracting := [0]
  lhsNonContracting := [0]
  rhsNonContracting := [1]
  lhsBatch := []
  rhsBatch := []
  wf := dot_S4096x7168_S7168x576_S4096x576_1_0_0_1_n_n_wf

class Facts : Prop extends Facts₀ where

variable [Facts]
-- ==== Proof.K.Base.lean ====
import proofs.«125229_j77395310674148_1_alg».proof.Proof.Gen.Kernel.Launch
import proofs.«125229_j77395310674148_1_alg».proof.Proof.Gen.Kernel.Skeleton
import proofs.«125229_j77395310674148_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x1792 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1536 .bf16 := win0_3.stage (cfg0.slots t 3)
abbrev hs0_3 (t : Fin cfg0.N) : (ms0_3 t).IsWhole := hstage0_3 ((cfg0.slots t 3).cast nbuf0_3)

abbrev scM0 : Memref sig .tc .vmem S1024x1536 .f32 := Memref.whole cc0_scratch0
abbrev VS0 : View sig .tc .vmem S1024x1536 .f32 := scM0.view
abbrev VO0 : View sig .tc .vmem S1024x1536 .bf16 := (Memref.whole cc0_stg3_0 : Memref sig .tc .vmem S1024x1536 .bf16).view

theorem PhiA0_split (c : Dev nD) :
    (Pipeline.ΦA spec0 c : sProp 𝕄)
      ⊢ iprop((∃ d, owns (c : Thread nD τ) scM0 fullShare d) ∗ ((∃ d, owns (c : Thread nD τ) scM0 fullShare d) -∗ Pipeline.ΦA spec0 c)) := by
  unfold Pipeline.ΦA; rw [scopedRest0_eq]; simp only [scM0, owns_whole]
  iintro ⟨⟨HS, Hrest⟩, Hg⟩
  isplitl [HS]; · iexact HS
  iintro HS'
  iframe

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev ms2_0 (t : Fin cfg2.N) : Memref sig .tc .vmem S1024x1792 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1792x576 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x576 .f32 := win2_5.stage (cfg2.slots t 5)
abbrev hs2_5 (t : Fin cfg2.N) : (ms2_5 t).IsWhole := hstage2_5 ((cfg2.slots t 5).cast nbuf2_5)

abbrev scM2 : Memref sig .tc .vmem S1024x576 .f32 := Memref.whole cc2_scratch0
abbrev VS2 : View sig .tc .vmem S1024x576 .f32 := scM2.view
abbrev VO2 : View sig .tc .vmem S1024x576 .f32 := (Memref.whole cc2_stg5_0 : Memref sig .tc .vmem S1024x576 .f32).view

theorem PhiA2_split (c : Dev nD) :
    (Pipeline.ΦA spec2 c : sProp 𝕄)
      ⊢ iprop((∃ d, owns (c : Thread nD τ) scM2 fullShare d) ∗ ((∃ d, owns (c : Thread nD τ) scM2 fullShare d) -∗ Pipeline.ΦA spec2 c)) := by
  unfold Pipeline.ΦA; rw [scopedRest2_eq]; simp only [scM2, owns_whole]
  iintro ⟨⟨H0, H1, H2, H3, H4, H5, H6, H7, H8, H9, H10, H11, H12, H13, H14, H15, H16, H17, HS⟩, Hg⟩
  isplitl [HS]; · iexact HS
  iintro HS'
  iframe

end Cert.Kernel.Hand

end
-- ==== Proof.K.R0RunA.lean ====
import proofs.«125229_j77395310674148_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole) (hc0 : cond0_0 i) (hc1 : ¬cond0_1 i)
    (x0 : Vec F S1024x1792 .f32) (x1 : Vec F S1792x1536 .bf16) (x2 : Vec F S1536 .f32) :
    { LS0 : List (View.Piece (Elt F) S1024x1536 .f32) //
      ∀ (xi3 : Vec F S1024x1536 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cq_kernel i arg2 harg2 arg3 harg3 arg4 harg4 arg5 harg5 arg6 harg6) K } := by
  refine ⟨?_, fun xi3 E K => ?run⟩
  case run =>
    simp only [cc0__cq_kernel_eq_skeleton]; unfold cc0__cq_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunB.lean ====
import proofs.«125229_j77395310674148_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole) (hc0 : ¬cond0_0 i) (hc1 : ¬cond0_1 i)
    (x0 : Vec F S1024x1792 .f32) (x1 : Vec F S1792x1536 .bf16) (x2 : Vec F S1536 .f32) (xs0 : Vec F S1024x1536 .f32) :
    { LS0 : List (View.Piece (Elt F) S1024x1536 .f32) //
      ∀ (xi3 : Vec F S1024x1536 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cq_kernel i arg2 harg2 arg3 harg3 arg4 harg4 arg5 harg5 arg6 harg6) K } := by
  refine ⟨?_, fun xi3 E K => ?run⟩
  case run =>
    simp only [cc0__cq_kernel_eq_skeleton]; unfold cc0__cq_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunC.lean ====
import proofs.«125229_j77395310674148_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole) (hc0 : ¬cond0_0 i) (hc1 : cond0_1 i)
    (x0 : Vec F S1024x1792 .f32) (x1 : Vec F S1792x1536 .bf16) (x2 : Vec F S1536 .f32) (xs0 : Vec F S1024x1536 .f32) :
    Σ' (L3 : List (View.Piece (Elt F) S1024x1536 .bf16)), { LS0 : List (View.Piece (Elt F) S1024x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__cq_kernel i arg2 harg2 arg3 harg3 arg4 harg4 arg5 harg5 arg6 harg6) K } := by
  refine ⟨?_, ?_, fun E K => ?run⟩
  case run =>
    simp only [cc0__cq_kernel_eq_skeleton]; unfold cc0__cq_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R0.lean ====
import proofs.«125229_j77395310674148_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole)

theorem scover0_A (hc0 : cond0_0 i) (hc1 : ¬cond0_1 i)
    (x0 : Vec F S1024x1792 .f32) (x1 : Vec F S1792x1536 .bf16) (x2 : Vec F S1536 .f32) (y : S1024x1536.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x1536.size (by sl_kernel_rfl) y

def sout0_A (hc0 : cond0_0 i) (hc1 : ¬cond0_1 i)
    (x0 : Vec F S1024x1792 .f32) (x1 : Vec F S1792x1536 .bf16) (x2 : Vec F S1536 .f32) : Vec F S1024x1536 .f32 :=
  VS0.read (Elt F) (VS0.writes (Elt F) VS0.junk (kernelRun0_A c i arg2 harg2 arg3 harg3 arg4 harg4 arg5 harg5 arg6 harg6 hc0 hc1 x0 x1 x2).1)

theorem scover0_B (hc0 : ¬cond0_0 i) (hc1 : ¬cond0_1 i)
    (x0 : Vec F S1024x1792 .f32) (x1 : Vec F S1792x1536 .bf16) (x2 : Vec F S1536 .f32) (xs0 : Vec F S1024x1536 .f32) (y : S1024x1536.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S1024x1536.size (by sl_kernel_rfl) y

def sout0_B (hc0 : ¬cond0_0 i) (hc1 : ¬cond0_1 i)
    (x0 : Vec F S1024x1792 .f32) (x1 : Vec F S1792x1536 .bf16) (x2 : Vec F S1536 .f32) (xs0 : Vec F S1024x1536 .f32) : Vec F S1024x1536 .f32 :=
  VS0.read (Elt F) (VS0.writes (Elt F) VS0.junk (kernelRun0_B c i arg2 harg2 arg3 harg3 arg4 harg4 arg5 harg5 arg6 harg6 hc0 hc1 x0 x1 x2 xs0).1)

theorem cover0_C (hc0 : ¬cond0_0 i) (hc1 : cond0_1 i)
    (x0 : Vec F S1024x1792 .f32) (x1 : Vec F S1792x1536 .bf16) (x2 : Vec F S1536 .f32) (xs0 : Vec F S1024x1536 .f32) (y : S1024x1536.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x1536.size (by sl_kernel_rfl) y

def out0_C (hc0 : ¬cond0_0 i) (hc1 : cond0_1 i)
    (x0 : Vec F S1024x1792 .f32) (x1 : Vec F S1792x1536 .bf16) (x2 : Vec F S1536 .f32) (xs0 : Vec F S1024x1536 .f32) : Vec F S1024x1536 .bf16 :=
  VO0.read (Elt F) (VO0.writes (Elt F) VO0.junk (kernelRun0_C c i arg2 harg2 arg3 harg3 arg4 harg4 arg5 harg5 arg6 harg6 hc0 hc1 x0 x1 x2 xs0).1)

theorem scover0_C (hc0 : ¬cond0_0 i) (hc1 : cond0_1 i)
    (x0 : Vec F S1024x1792 .f32) (x1 : Vec F S1792x1536 .bf16) (x2 : Vec F S1536 .f32) (xs0 : Vec F S1024x1536 .f32) (y : S1024x1536.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x1536.size (by sl_kernel_rfl) y

def sout0_C (hc0 : ¬cond0_0 i) (hc1 : cond0_1 i)
    (x0 : Vec F S1024x1792 .f32) (x1 : Vec F S1792x1536 .bf16) (x2 : Vec F S1536 .f32) (xs0 : Vec F S1024x1536 .f32) : Vec F S1024x1536 .f32 :=
  VS0.read (Elt F) (VS0.writes (Elt F) VS0.junk (kernelRun0_C c i arg2 harg2 arg3 harg3 arg4 harg4 arg5 harg5 arg6 harg6 hc0 hc1 x0 x1 x2 xs0).2.1)

end

def idleOut0 : Vec F S1024x1536 .bf16 := VO0.read (Elt F) VO0.junk

def outsAt0 (c : Dev nD) : (n : ℕ) → n < cfg0.N → Vec F S1024x1536 .bf16 × Vec F S1024x1536 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩))
  | n + 1, hn =>
    if h0 : (n + 1) % 4 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => by have h' := (hcond0_1 ⟨n + 1, hn⟩).mp h; (try dsimp only at h'); omega) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ ((∃ d, owns (c : Thread nD τ) scM0 fullShare d) -∗ Pipeline.ΦA spec0 c))

theorem PhiS0_succ (c : Dev nD) (n : ℕ) (hn : n < cfg0.N) :
    PhiS0 V c (n + 1) hn = iprop(owns (c : Thread nD τ) scM0 fullShare ((outsAt0 V c n hn).2) ∗ ((∃ d, owns (c : Thread nD τ) scM0 fullShare d) -∗ Pipeline.ΦA spec0 c)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ ((∃ d, owns (c : Thread nD τ) scM0 fullShare d) -∗ Pipeline.ΦA spec0 c)) := by
  cases n with
  | zero => exact absurd rfl hz
  | succ n => rfl

theorem PhiS0_acc (c : Dev nD) (n : ℕ) (h : n ≤ cfg0.N) :
    PhiS0 V c n h ⊢ iprop((∃ d, owns (c : Thread nD τ) scM0 fullShare d) ∗ ((∃ d, owns (c : Thread nD τ) scM0 fullShare d) -∗ Pipeline.ΦA spec0 c)) := by
  cases n with
  | zero => exact PhiA0_split c
  | succ n =>
    rw [PhiS0_succ]
    iintro ⟨HS0, Hw⟩
    isplitl [HS0]; · iexists _; iexact HS0
    iexact Hw

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 16 := lt_of_lt_of_eq t.isLt (show cfg0.N = 16 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    rw [PhiS0_castSucc V c t]
    iintro ⟨HΦ, Ho, ⟨%d0, H0⟩, ⟨%d1, H1⟩, ⟨%d2, H2⟩, ⟨%d3, H3⟩⟩
    ihave HΦ' := (PhiS0_acc V c _ _) $$ HΦ
    icases HΦ' with ⟨HS0, Hw⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
    iframe H0 H1 H2 H3 HS0
    iintro ⟨H0, H1, H2, H3, ⟨%es0, HS0⟩⟩
    isplitl [HS0 Hw]
    · isplitl [HS0]
      · unfold owns; iexists _; isplitr
        swap; · iexact HS0
        ipureintro; exact View.read_writes_of_cover _ _ _ _ _ (scover0_A c _ _ _ _ _ _ _ _ _ _ _ _ _ _ _ _)
      iexact Hw
    iframe Ho H0 H1 H2
    iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨HS0, Hw⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      isplitl [HS0 Hw]
      · isplitl [HS0]
        · unfold owns; iexists _; isplitr
          swap; · iexact HS0
          ipureintro; exact View.read_writes_of_cover _ _ _ _ _ (scover0_C c _ _ _ _ _ _ _ _ _ _ _ _ _ _ _ _ _)
        iexact Hw
      iframe Ho H0 H1 H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨HS0, Hw⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      iframe H0 H1 H2 H3 HS0
      iintro ⟨H0, H1, H2, H3, ⟨%es0, HS0⟩⟩
      isplitl [HS0 Hw]
      · isplitl [HS0]
        · unfold owns; iexists _; isplitr
          swap; · iexact HS0
          ipureintro; exact View.read_writes_of_cover _ _ _ _ _ (scover0_B c _ _ _ _ _ _ _ _ _ _ _ _ _ _ _ _ _)
        iexact Hw
      iframe Ho H0 H1 H2
      iexists _; iexact H3

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  iintro ⟨HS0, Hw⟩
  iapply Hw
  iexists _; iexact HS0

end Cert.Kernel.Hand

end
-- ==== Proof.K.R1.lean ====
import proofs.«125229_j77395310674148_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S1024x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x3072 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x3072 .f32 := win1_4.stage (cfg1.slots t 4)
abbrev hs1_4 (t : Fin cfg1.N) : (ms1_4 t).IsWhole := hstage1_4 ((cfg1.slots t 4).cast nbuf1_4)
abbrev VO1 : View sig .tc .vmem S1024x3072 .f32 := (Memref.whole cc1_stg4_0 : Memref sig .tc .vmem S1024x3072 .f32).view

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

variable (V : (c : Dev nD) → (b : Ref sig .tc) → Buf (Elt F) ((c : Thread nD τ).loc b))

section
variable (c : Dev nD) (i : grid1.Coords) (arg2 : Memref sig .tc .vmem S1024x1536 .bf16) (harg2 : arg2.IsWhole) (arg3 : Memref sig .tc .vmem S1536x3072 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x3072 .f32) (harg6 : arg6.IsWhole)

set_option maxHeartbeats 4000000 in
noncomputable def kernelRun1
    (x0 : Vec F S1024x1536 .bf16) (x1 : Vec F S1536x3072 .bf16) (x2 : Vec F S1024x64 .f32) (x3 : Vec F S1024x64 .f32) :
    { L4 : List (View.Piece (Elt F) S1024x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__q_kernel i arg2 harg2 arg3 harg3 arg4 harg4 arg5 harg5 arg6 harg6) K } := by
  refine ⟨?_, fun E K => ?run⟩
  case run =>
    simp only [cc1__q_kernel_eq_skeleton]; unfold cc1__q_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem cover1
    (x0 : Vec F S1024x1536 .bf16) (x1 : Vec F S1536x3072 .bf16) (x2 : Vec F S1024x64 .f32) (x3 : Vec F S1024x64 .f32) (y : S1024x3072.Idx) :
    ∃ pc ∈ (kernelRun1 c i arg2 harg2 arg3 harg3 arg4 harg4 arg5 harg5 arg6 harg6 x0 x1 x2 x3).1, y ∈ pc.1.set :=
  View.cover_of_tiledL (kernelRun1 c i arg2 harg2 arg3 harg3 arg4 harg4 arg5 harg5 arg6 harg6 x0 x1 x2 x3).1 S1024x3072.size (by sl_kernel_rfl) y

def out1
    (x0 : Vec F S1024x1536 .bf16) (x1 : Vec F S1536x3072 .bf16) (x2 : Vec F S1024x64 .f32) (x3 : Vec F S1024x64 .f32) : Vec F S1024x3072 .f32 :=
  VO1.read (Elt F) (VO1.writes (Elt F) VO1.junk (kernelRun1 c i arg2 harg2 arg3 harg3 arg4 harg4 arg5 harg5 arg6 harg6 x0 x1 x2 x3).1)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1; (try dsimp only)
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  iframe H0 H1 H2 H3
  isplitl [H4]; · iexists _; iexact H4
  iintro ⟨H0, H1, H2, H3, ⟨%e4, H4⟩⟩
  iframe HΦ Ho H0 H1 H2 H3
  unfold owns; iexists _; isplitr
  swap; · iexact H4
  ipureintro; exact View.read_writes_of_cover _ _ _ _ _ (cover1 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2RunA.lean ====
import proofs.«125229_j77395310674148_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole) (hc0 : cond2_0 i) (hc1 : ¬cond2_1 i)
    (x0 : Vec F S1024x1792 .f32) (x1 : Vec F S1792x576 .bf16) (x2 : Vec F S1024x64 .f32) (x3 : Vec F S1024x64 .f32) (x4 : Vec F S512 .f32) :
    { LS0 : List (View.Piece (Elt F) S1024x576 .f32) //
      ∀ (xi5 : Vec F S1024x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__kv_kernel i arg2 harg2 arg3 harg3 arg4 harg4 arg5 harg5 arg6 harg6 arg7 harg7 arg8 harg8) K } := by
  refine ⟨?_, fun xi5 E K => ?run⟩
  case run =>
    simp only [cc2__kv_kernel_eq_skeleton]; unfold cc2__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R2RunB.lean ====
import proofs.«125229_j77395310674148_1_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole) (hc0 : ¬cond2_0 i) (hc1 : ¬cond2_1 i)
    (x0 : Vec F S1024x1792 .f32) (x1 : Vec F S1792x576 .bf16) (x2 : Vec F S1024x64 .f32) (x3 : Vec F S1024x64 .f32) (x4 : Vec F S512 .f32) (xs0 : Vec F S1024x576 .f32) :
    { LS0 : List (View.Piece (Elt F) S1024x576 .f32) //
      ∀ (xi5 : Vec F S1024x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__kv_kernel i arg2 harg2 arg3 harg3 arg4 harg4 arg5 harg5 arg6 harg6 arg7 harg7 arg8 harg8) K } := by
  refine ⟨?_, fun xi5 E K => ?run⟩
  case run =>
    simp only [cc2__kv_kernel_eq_skeleton]; unfold cc2__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R2RunC.lean ====
import proofs.«125229_j77395310674148_1_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole) (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) :
    Σ' (L5 : List (View.Piece (Elt F) S1024x576 .f32)), { LS0 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__kv_kernel i arg2 harg2 arg3 harg3 arg4 harg4 arg5 harg5 arg6 harg6 arg7 harg7 arg8 harg8) K } := by
  refine ⟨?_, ?_, fun E K => ?run⟩
  case run =>
    simp only [cc2__kv_kernel_eq_skeleton]; unfold cc2__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.R2.lean ====
import proofs.«125229_j77395310674148_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole)

theorem scover2_A (hc0 : cond2_0 i) (hc1 : ¬cond2_1 i)
    (x0 : Vec F S1024x1792 .f32) (x1 : Vec F S1792x576 .bf16) (x2 : Vec F S1024x64 .f32) (x3 : Vec F S1024x64 .f32) (x4 : Vec F S512 .f32) (y : S1024x576.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S1024x576.size (by sl_kernel_rfl) y

def sout2_A (hc0 : cond2_0 i) (hc1 : ¬cond2_1 i)
    (x0 : Vec F S1024x1792 .f32) (x1 : Vec F S1792x576 .bf16) (x2 : Vec F S1024x64 .f32) (x3 : Vec F S1024x64 .f32) (x4 : Vec F S512 .f32) : Vec F S1024x576 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem scover2_B (hc0 : ¬cond2_0 i) (hc1 : ¬cond2_1 i)
    (x0 : Vec F S1024x1792 .f32) (x1 : Vec F S1792x576 .bf16) (x2 : Vec F S1024x64 .f32) (x3 : Vec F S1024x64 .f32) (x4 : Vec F S512 .f32) (xs0 : Vec F S1024x576 .f32) (y : S1024x576.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S1024x576.size (by sl_kernel_rfl) y

def sout2_B (hc0 : ¬cond2_0 i) (hc1 : ¬cond2_1 i)
    (x0 : Vec F S1024x1792 .f32) (x1 : Vec F S1792x576 .bf16) (x2 : Vec F S1024x64 .f32) (x3 : Vec F S1024x64 .f32) (x4 : Vec F S512 .f32) (xs0 : Vec F S1024x576 .f32) : Vec F S1024x576 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).1)

theorem cover2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) (y : S1024x576.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x576.size (by sl_kernel_rfl) y

def out2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) : Vec F S1024x576 .f32 :=
  VO2.read (Elt F) (VO2.writes (Elt F) VO2.junk (kernelRun2_C c i arg2 harg2 arg3 harg3 arg4 harg4 arg5 harg5 arg6 harg6 arg7 harg7 arg8 harg8 hc0 hc1 x0 x1 x2 x3 x4 xs0).1)

theorem scover2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) (y : S1024x576.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x576.size (by sl_kernel_rfl) y

def sout2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) : Vec F S1024x576 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)

end

def idleOut2 : Vec F S1024x576 .f32 := VO2.read (Elt F) VO2.junk

def outsAt2 (c : Dev nD) : (n : ℕ) → n < cfg2.N → Vec F S1024x576 .f32 × Vec F S1024x576 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => by have h' := (hcond2_1 ⟨n + 1, hn⟩).mp h; (try dsimp only at h'); omega) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ ((∃ d, owns (c : Thread nD τ) scM2 fullShare d) -∗ Pipeline.ΦA spec2 c))

theorem PhiS2_succ (c : Dev nD) (n : ℕ) (hn : n < cfg2.N) :
    PhiS2 V c (n + 1) hn = iprop(owns (c : Thread nD τ) scM2 fullShare ((outsAt2 V c n hn).2) ∗ ((∃ d, owns (c : Thread nD τ) scM2 fullShare d) -∗ Pipeline.ΦA spec2 c)) := rfl

theorem PhiS2_pos (c : Dev nD) (n : ℕ) (h : n ≤ cfg2.N) (hz : n ≠ 0) :
    PhiS2 V c n h = iprop(owns (c : Thread nD τ) scM2 fullShare ((outsAt2 V c (n - 1) (by omega)).2) ∗ ((∃ d, owns (c : Thread nD τ) scM2 fullShare d) -∗ Pipeline.ΦA spec2 c)) := by
  cases n with
  | zero => exact absurd rfl hz
  | succ n => rfl

theorem PhiS2_acc (c : Dev nD) (n : ℕ) (h : n ≤ cfg2.N) :
    PhiS2 V c n h ⊢ iprop((∃ d, owns (c : Thread nD τ) scM2 fullShare d) ∗ ((∃ d, owns (c : Thread nD τ) scM2 fullShare d) -∗ Pipeline.ΦA spec2 c)) := by
  cases n with
  | zero => exact PhiA2_split c
  | succ n =>
    rw [PhiS2_succ]
    iintro ⟨HS0, Hw⟩
    isplitl [HS0]; · iexists _; iexact HS0
    iexact Hw

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare (iblk2 V c 4 t) := by
  unfold Dat.leavesExact; rw [liveAt2_4 t, after2_4]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 16 := lt_of_lt_of_eq t.isLt (show cfg2.N = 16 from N_2)
  by_cases h0 : t.val % 4 = 0
  · have h1 : ¬t.val % 4 = 3 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    rw [PhiS2_castSucc V c t]
    iintro ⟨HΦ, Ho, ⟨%d0, H0⟩, ⟨%d1, H1⟩, ⟨%d2, H2⟩, ⟨%d3, H3⟩, ⟨%d4, H4⟩, ⟨%d5, H5⟩⟩
    ihave HΦ' := (PhiS2_acc V c _ _) $$ HΦ
    icases HΦ' with ⟨HS0, Hw⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
    iframe H0 H1 H2 H3 H4 H5 HS0
    iintro ⟨H0, H1, H2, H3, H4, H5, ⟨%es0, HS0⟩⟩
    isplitl [HS0 Hw]
    · isplitl [HS0]
      · unfold owns; iexists _; isplitr
        swap; · iexact HS0
        ipureintro; exact View.read_writes_of_cover _ _ _ _ _ (scover2_A c _ _ _ _ _ _ _ _ _ _ _ _ _ _ _ _ _ _ _ _ _ _)
      iexact Hw
    iframe Ho H0 H1 H2 H3 H4
    iexists _; iexact H5
  · have hz : t.val ≠ 0 := by omega
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨HS0, Hw⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      iframe H0 H1 H2 H3 H4
      isplitl [H5]; · iexists _; iexact H5
      isplitl [HS0]; · iexact HS0
      iintro ⟨H0, H1, H2, H3, H4, ⟨%e5, H5⟩, ⟨%es0, HS0⟩⟩
      isplitl [HS0 Hw]
      · isplitl [HS0]
        · unfold owns; iexists _; isplitr
          swap; · iexact HS0
          ipureintro; exact View.read_writes_of_cover _ _ _ _ _ (scover2_C c _ _ _ _ _ _ _ _ _ _ _ _ _ _ _ _ _ _ _ _ _ _ _)
        iexact Hw
      iframe Ho H0 H1 H2 H3 H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨HS0, Hw⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 _ Set.univ _)
      iframe H0 H1 H2 H3 H4 H5 HS0
      iintro ⟨H0, H1, H2, H3, H4, H5, ⟨%es0, HS0⟩⟩
      isplitl [HS0 Hw]
      · isplitl [HS0]
        · unfold owns; iexists _; isplitr
          swap; · iexact HS0
          ipureintro; exact View.read_writes_of_cover _ _ _ _ _ (scover2_B c _ _ _ _ _ _ _ _ _ _ _ _ _ _ _ _ _ _ _ _ _ _ _)
        iexact Hw
      iframe Ho H0 H1 H2 H3 H4
      iexists _; iexact H5

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega)]
  iintro ⟨HS0, Hw⟩
  iapply Hw
  iexists _; iexact HS0

end Cert.Kernel.Hand

end
-- ==== Proof.K.Main.lean ====
import proofs.«125229_j77395310674148_1_alg».proof.Proof.K.R0
import proofs.«125229_j77395310674148_1_alg».proof.Proof.K.R1
import proofs.«125229_j77395310674148_1_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps3 (W4 m ρ c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have h : ((dat0 (V1 m ρ) c).Φ (Fin.last cfg0.N) : sProp 𝕄) ⊢ iprop(Pipeline.scopedRest spec0 c ∗ ∃ r, prngReg c r) := by
      have h' := hout0 (V1 m ρ) c; unfold Pipeline.ΦA at h'; exact h'
    rw [Pipeline.ownSems0_none, show (pdats m ρ 0 c).Φ (Fin.last _) = (dat0 (V1 m ρ) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    have h : ((dat2 (V3 m ρ) c).Φ (Fin.last cfg2.N) : sProp 𝕄) ⊢ iprop(Pipeline.scopedRest spec2 c ∗ ∃ r, prngReg c r) := by
      have h' := hout2 (V3 m ρ) c; unfold Pipeline.ΦA at h'; exact h'
    rw [Pipeline.ownSems0_none, show (pdats m ρ 2 c).Φ (Fin.last _) = (dat2 (V3 m ρ) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .host (hseg hostOps3 hostOps3_sub hostOps3_fresh' (W4 m ρ)) ]

theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => StableHlo.held (c : Thread nD τ) (Pipeline.ucRefs τ sig) (W5 m ρ c))
    (hch := ⟨fun _ => .rfl, fun _ => .rfl, fun _ => .rfl, fun _ => .rfl, fun _ => .rfl, fun c => sep_mono .rfl (by iintro ⟨-, Ho⟩; iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨Hh, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.Frame.lean ====
import proofs.«125229_j77395310674148_1_alg».proof.Proof.K.Main

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD) (b : Ref sig .tc)

/-- A region changes only its output array. -/
theorem keep0 (hb : b ≠ main_v3) : W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w
      ((by decide : ∀ w : Fin cfg0.W, Pipeline.arrRef spec0 w ≠ main_v3 → (cfg0.win w).isOut = false) w hb) _).trans (A_eq0 (V1 m ρ) c w))
  · exact W2_of_ne m ρ c b fun w e => h ⟨w, e⟩

theorem keep1 (hb : b ≠ main_v4) : W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w
      ((by decide : ∀ w : Fin cfg1.W, Pipeline.arrRef spec1 w ≠ main_v4 → (cfg1.win w).isOut = false) w hb) _).trans (A_eq1 (V2 m ρ) c w))
  · exact W3_of_ne m ρ c b fun w e => h ⟨w, e⟩

theorem keep2 (hb : b ≠ main_v5) : W4 m ρ c (Proc.devRef .tc b) = W3 m ρ c (Proc.devRef .tc b) := by
  by_cases h : ∃ w, Pipeline.arrRef spec2 w = b
  · obtain ⟨w, rfl⟩ := h
    exact (W4_arr m ρ c w).trans (((dat2 (V3 m ρ) c).arrAt_in w
      ((by decide : ∀ w : Fin cfg2.W, Pipeline.arrRef spec2 w ≠ main_v5 → (cfg2.win w).isOut = false) w hb) _).trans (A_eq2 (V3 m ρ) c w))
  · exact W4_of_ne m ρ c b fun w e => h ⟨w, e⟩

/-- A host stretch changes only its operations' results. -/
theorem keepH0 (hb : b ≠ main_v0 ∧ b ≠ main_v1 ∧ b ≠ main_v2) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne hb.1, StableHlo.devRef_ne_of_ne hb.2.1, StableHlo.devRef_ne_of_ne hb.2.2⟩))).trans rfl

theorem keepH3 (hb : b ≠ main_v6) : W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.binary_writes, Finset.mem_singleton]
    exact StableHlo.devRef_ne_of_ne hb))

/-- A buffer that no item changes ends as launched. -/
theorem W5_keep (hb : b ≠ main_v0 ∧ b ≠ main_v1 ∧ b ≠ main_v2 ∧ b ≠ main_v3 ∧ b ≠ main_v4 ∧ b ≠ main_v5 ∧ b ≠ main_v6) :
    W5 m ρ c (Proc.devRef .tc b) = m ((c : Thread nD τ).loc b) :=
  (keepH3 m ρ c b hb.2.2.2.2.2.2).trans <| (keep2 m ρ c b hb.2.2.2.2.2.1).trans <| (keep1 m ρ c b hb.2.2.2.2.1).trans <|
    (keep0 m ρ c b hb.2.2.2.1).trans (keepH0 m ρ c b ⟨hb.1, hb.2.1, hb.2.2.1⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W5_keep m ρ c _ (by decide)),
     (h c _ (mem_uc main_arg1 (by decide))).trans (W5_keep m ρ c _ (by decide)),
     (h c _ (mem_uc main_arg2 (by decide))).trans (W5_keep m ρ c _ (by decide)),
     (h c _ (mem_uc main_arg3 (by decide))).trans (W5_keep m ρ c _ (by decide)),
     (h c _ (mem_uc main_arg4 (by decide))).trans (W5_keep m ρ c _ (by decide)),
     (h c _ (mem_uc main_arg5 (by decide))).trans (W5_keep m ρ c _ (by decide)),
     (h c _ (mem_uc main_arg6 (by decide))).trans (W5_keep m ρ c _ (by decide)),
     (h c _ (mem_uc main_arg7 (by decide))).trans (W5_keep m ρ c _ (by decide))⟩)
    (run_main m ρ)

end Cert.Kernel.Hand

end
-- ==== Proof.KI.Base.lean ====
import proofs.«125229_j77395310674148_1_alg».proof.Proof.Gen.KernelIdeal.Launch
import proofs.«125229_j77395310674148_1_alg».proof.Proof.Gen.KernelIdeal.Skeleton
import proofs.«125229_j77395310674148_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1024x1792 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1792x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1536 .bf16 := win0_3.stage (cfg0.slots t 3)
abbrev hs0_3 (t : Fin cfg0.N) : (ms0_3 t).IsWhole := hstage0_3 ((cfg0.slots t 3).cast nbuf0_3)

abbrev scM0 : Memref sig .tc .vmem S1024x1536 .f32 := Memref.whole cc0_scratch0
abbrev VS0 : View sig .tc .vmem S1024x1536 .f32 := scM0.view
abbrev VO0 : View sig .tc .vmem S1024x1536 .bf16 := (Memref.whole cc0_stg3_0 : Memref sig .tc .vmem S1024x1536 .bf16).view

theorem PhiA0_split (c : Dev nD) :
    (Pipeline.ΦA spec0 c : sProp 𝕄)
      ⊢ iprop((∃ d, owns (c : Thread nD τ) scM0 fullShare d) ∗ ((∃ d, owns (c : Thread nD τ) scM0 fullShare d) -∗ Pipeline.ΦA spec0 c)) := by
  unfold Pipeline.ΦA; rw [scopedRest0_eq]; simp only [scM0, owns_whole]
  iintro ⟨⟨HS, Hrest⟩, Hg⟩
  isplitl [HS]; · iexact HS
  iintro HS'
  iframe

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

abbrev ms2_0 (t : Fin cfg2.N) : Memref sig .tc .vmem S1024x1792 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1792x576 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x576 .f32 := win2_5.stage (cfg2.slots t 5)
abbrev hs2_5 (t : Fin cfg2.N) : (ms2_5 t).IsWhole := hstage2_5 ((cfg2.slots t 5).cast nbuf2_5)

abbrev scM2 : Memref sig .tc .vmem S1024x576 .f32 := Memref.whole cc2_scratch0
abbrev VS2 : View sig .tc .vmem S1024x576 .f32 := scM2.view
abbrev VO2 : View sig .tc .vmem S1024x576 .f32 := (Memref.whole cc2_stg5_0 : Memref sig .tc .vmem S1024x576 .f32).view

theorem PhiA2_split (c : Dev nD) :
    (Pipeline.ΦA spec2 c : sProp 𝕄)
      ⊢ iprop((∃ d, owns (c : Thread nD τ) scM2 fullShare d) ∗ ((∃ d, owns (c : Thread nD τ) scM2 fullShare d) -∗ Pipeline.ΦA spec2 c)) := by
  unfold Pipeline.ΦA; rw [scopedRest2_eq]; simp only [scM2, owns_whole]
  iintro ⟨⟨H0, H1, H2, H3, H4, H5, H6, H7, H8, H9, H10, H11, H12, H13, H14, H15, H16, H17, HS⟩, Hg⟩
  isplitl [HS]; · iexact HS
  iintro HS'
  iframe

end Cert.KernelIdeal.Hand

end
-- ==== Proof.KI.R0RunA.lean ====
import proofs.«125229_j77395310674148_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole) (hc0 : cond0_0 i) (hc1 : ¬cond0_1 i)
    (x0 : Vec F S1024x1792 .f32) (x1 : Vec F S1792x1536 .bf16) (x2 : Vec F S1536 .f32) :
    { LS0 : List (View.Piece (Elt F) S1024x1536 .f32) //
      ∀ (xi3 : Vec F S1024x1536 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cq_kernel i arg2 harg2 arg3 harg3 arg4 harg4 arg5 harg5 arg6 harg6) K } := by
  refine ⟨?_, fun xi3 E K => ?run⟩
  case run =>
    simp only [cc0__cq_kernel_eq_skeleton]; unfold cc0__cq_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunB.lean ====
import proofs.«125229_j77395310674148_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole) (hc0 : ¬cond0_0 i) (hc1 : ¬cond0_1 i)
    (x0 : Vec F S1024x1792 .f32) (x1 : Vec F S1792x1536 .bf16) (x2 : Vec F S1536 .f32) (xs0 : Vec F S1024x1536 .f32) :
    { LS0 : List (View.Piece (Elt F) S1024x1536 .f32) //
      ∀ (xi3 : Vec F S1024x1536 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__cq_kernel i arg2 harg2 arg3 harg3 arg4 harg4 arg5 harg5 arg6 harg6) K } := by
  refine ⟨?_, fun xi3 E K => ?run⟩
  case run =>
    simp only [cc0__cq_kernel_eq_skeleton]; unfold cc0__cq_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunC.lean ====
import proofs.«125229_j77395310674148_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole) (hc0 : ¬cond0_0 i) (hc1 : cond0_1 i)
    (x0 : Vec F S1024x1792 .f32) (x1 : Vec F S1792x1536 .bf16) (x2 : Vec F S1536 .f32) (xs0 : Vec F S1024x1536 .f32) :
    Σ' (L3 : List (View.Piece (Elt F) S1024x1536 .bf16)), { LS0 : List (View.Piece (Elt F) S1024x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__cq_kernel i arg2 harg2 arg3 harg3 arg4 harg4 arg5 harg5 arg6 harg6) K } := by
  refine ⟨?_, ?_, fun E K => ?run⟩
  case run =>
    simp only [cc0__cq_kernel_eq_skeleton]; unfold cc0__cq_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0.lean ====
import proofs.«125229_j77395310674148_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole)

theorem scover0_A (hc0 : cond0_0 i) (hc1 : ¬cond0_1 i)
    (x0 : Vec F S1024x1792 .f32) (x1 : Vec F S1792x1536 .bf16) (x2 : Vec F S1536 .f32) (y : S1024x1536.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x1536.size (by sl_kernel_rfl) y

def sout0_A (hc0 : cond0_0 i) (hc1 : ¬cond0_1 i)
    (x0 : Vec F S1024x1792 .f32) (x1 : Vec F S1792x1536 .bf16) (x2 : Vec F S1536 .f32) : Vec F S1024x1536 .f32 :=
  VS0.read (Elt F) (VS0.writes (Elt F) VS0.junk (kernelRun0_A c i arg2 harg2 arg3 harg3 arg4 harg4 arg5 harg5 arg6 harg6 hc0 hc1 x0 x1 x2).1)

theorem scover0_B (hc0 : ¬cond0_0 i) (hc1 : ¬cond0_1 i)
    (x0 : Vec F S1024x1792 .f32) (x1 : Vec F S1792x1536 .bf16) (x2 : Vec F S1536 .f32) (xs0 : Vec F S1024x1536 .f32) (y : S1024x1536.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S1024x1536.size (by sl_kernel_rfl) y

def sout0_B (hc0 : ¬cond0_0 i) (hc1 : ¬cond0_1 i)
    (x0 : Vec F S1024x1792 .f32) (x1 : Vec F S1792x1536 .bf16) (x2 : Vec F S1536 .f32) (xs0 : Vec F S1024x1536 .f32) : Vec F S1024x1536 .f32 :=
  VS0.read (Elt F) (VS0.writes (Elt F) VS0.junk (kernelRun0_B c i arg2 harg2 arg3 harg3 arg4 harg4 arg5 harg5 arg6 harg6 hc0 hc1 x0 x1 x2 xs0).1)

theorem cover0_C (hc0 : ¬cond0_0 i) (hc1 : cond0_1 i)
    (x0 : Vec F S1024x1792 .f32) (x1 : Vec F S1792x1536 .bf16) (x2 : Vec F S1536 .f32) (xs0 : Vec F S1024x1536 .f32) (y : S1024x1536.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x1536.size (by sl_kernel_rfl) y

def out0_C (hc0 : ¬cond0_0 i) (hc1 : cond0_1 i)
    (x0 : Vec F S1024x1792 .f32) (x1 : Vec F S1792x1536 .bf16) (x2 : Vec F S1536 .f32) (xs0 : Vec F S1024x1536 .f32) : Vec F S1024x1536 .bf16 :=
  VO0.read (Elt F) (VO0.writes (Elt F) VO0.junk (kernelRun0_C c i arg2 harg2 arg3 harg3 arg4 harg4 arg5 harg5 arg6 harg6 hc0 hc1 x0 x1 x2 xs0).1)

theorem scover0_C (hc0 : ¬cond0_0 i) (hc1 : cond0_1 i)
    (x0 : Vec F S1024x1792 .f32) (x1 : Vec F S1792x1536 .bf16) (x2 : Vec F S1536 .f32) (xs0 : Vec F S1024x1536 .f32) (y : S1024x1536.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x1536.size (by sl_kernel_rfl) y

def sout0_C (hc0 : ¬cond0_0 i) (hc1 : cond0_1 i)
    (x0 : Vec F S1024x1792 .f32) (x1 : Vec F S1792x1536 .bf16) (x2 : Vec F S1536 .f32) (xs0 : Vec F S1024x1536 .f32) : Vec F S1024x1536 .f32 :=
  VS0.read (Elt F) (VS0.writes (Elt F) VS0.junk (kernelRun0_C c i arg2 harg2 arg3 harg3 arg4 harg4 arg5 harg5 arg6 harg6 hc0 hc1 x0 x1 x2 xs0).2.1)

end

def idleOut0 : Vec F S1024x1536 .bf16 := VO0.read (Elt F) VO0.junk

def outsAt0 (c : Dev nD) : (n : ℕ) → n < cfg0.N → Vec F S1024x1536 .bf16 × Vec F S1024x1536 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => by have h' := (hcond0_1 ⟨0, hn⟩).mp h; (try dsimp only at h'); omega) (iblk0 V c 0 ⟨0, hn⟩) (iblk0 V c 1 ⟨0, hn⟩) (iblk0 V c 2 ⟨0, hn⟩))
  | n + 1, hn =>
    if h0 : (n + 1) % 4 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => by have h' := (hcond0_1 ⟨n + 1, hn⟩).mp h; (try dsimp only at h'); omega) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ ((∃ d, owns (c : Thread nD τ) scM0 fullShare d) -∗ Pipeline.ΦA spec0 c))

theorem PhiS0_succ (c : Dev nD) (n : ℕ) (hn : n < cfg0.N) :
    PhiS0 V c (n + 1) hn = iprop(owns (c : Thread nD τ) scM0 fullShare ((outsAt0 V c n hn).2) ∗ ((∃ d, owns (c : Thread nD τ) scM0 fullShare d) -∗ Pipeline.ΦA spec0 c)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ ((∃ d, owns (c : Thread nD τ) scM0 fullShare d) -∗ Pipeline.ΦA spec0 c)) := by
  cases n with
  | zero => exact absurd rfl hz
  | succ n => rfl

theorem PhiS0_acc (c : Dev nD) (n : ℕ) (h : n ≤ cfg0.N) :
    PhiS0 V c n h ⊢ iprop((∃ d, owns (c : Thread nD τ) scM0 fullShare d) ∗ ((∃ d, owns (c : Thread nD τ) scM0 fullShare d) -∗ Pipeline.ΦA spec0 c)) := by
  cases n with
  | zero => exact PhiA0_split c
  | succ n =>
    rw [PhiS0_succ]
    iintro ⟨HS0, Hw⟩
    isplitl [HS0]; · iexists _; iexact HS0
    iexact Hw

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 16 := lt_of_lt_of_eq t.isLt (show cfg0.N = 16 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    rw [PhiS0_castSucc V c t]
    iintro ⟨HΦ, Ho, ⟨%d0, H0⟩, ⟨%d1, H1⟩, ⟨%d2, H2⟩, ⟨%d3, H3⟩⟩
    ihave HΦ' := (PhiS0_acc V c _ _) $$ HΦ
    icases HΦ' with ⟨HS0, Hw⟩
    iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
    iframe H0 H1 H2 H3 HS0
    iintro ⟨H0, H1, H2, H3, ⟨%es0, HS0⟩⟩
    isplitl [HS0 Hw]
    · isplitl [HS0]
      · unfold owns; iexists _; isplitr
        swap; · iexact HS0
        ipureintro; exact View.read_writes_of_cover _ _ _ _ _ (scover0_A c _ _ _ _ _ _ _ _ _ _ _ _ _ _ _ _)
      iexact Hw
    iframe Ho H0 H1 H2
    iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨HS0, Hw⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      iframe H0 H1 H2
      isplitl [H3]; · iexists _; iexact H3
      isplitl [HS0]; · iexact HS0
      iintro ⟨H0, H1, H2, ⟨%e3, H3⟩, ⟨%es0, HS0⟩⟩
      isplitl [HS0 Hw]
      · isplitl [HS0]
        · unfold owns; iexists _; isplitr
          swap; · iexact HS0
          ipureintro; exact View.read_writes_of_cover _ _ _ _ _ (scover0_C c _ _ _ _ _ _ _ _ _ _ _ _ _ _ _ _ _)
        iexact Hw
      iframe Ho H0 H1 H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨HS0, Hw⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      iframe H0 H1 H2 H3 HS0
      iintro ⟨H0, H1, H2, H3, ⟨%es0, HS0⟩⟩
      isplitl [HS0 Hw]
      · isplitl [HS0]
        · unfold owns; iexists _; isplitr
          swap; · iexact HS0
          ipureintro; exact View.read_writes_of_cover _ _ _ _ _ (scover0_B c _ _ _ _ _ _ _ _ _ _ _ _ _ _ _ _ _)
        iexact Hw
      iframe Ho H0 H1 H2
      iexists _; iexact H3

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega)]
  iintro ⟨HS0, Hw⟩
  iapply Hw
  iexists _; iexact HS0

end Cert.KernelIdeal.Hand

end
-- ==== Proof.KI.R1.lean ====
import proofs.«125229_j77395310674148_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S1024x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x3072 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x3072 .f32 := win1_4.stage (cfg1.slots t 4)
abbrev hs1_4 (t : Fin cfg1.N) : (ms1_4 t).IsWhole := hstage1_4 ((cfg1.slots t 4).cast nbuf1_4)
abbrev VO1 : View sig .tc .vmem S1024x3072 .f32 := (Memref.whole cc1_stg4_0 : Memref sig .tc .vmem S1024x3072 .f32).view

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

variable (V : (c : Dev nD) → (b : Ref sig .tc) → Buf (Elt F) ((c : Thread nD τ).loc b))

section
variable (c : Dev nD) (i : grid1.Coords) (arg2 : Memref sig .tc .vmem S1024x1536 .bf16) (harg2 : arg2.IsWhole) (arg3 : Memref sig .tc .vmem S1536x3072 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x3072 .f32) (harg6 : arg6.IsWhole)

set_option maxHeartbeats 4000000 in
noncomputable def kernelRun1
    (x0 : Vec F S1024x1536 .bf16) (x1 : Vec F S1536x3072 .bf16) (x2 : Vec F S1024x64 .f32) (x3 : Vec F S1024x64 .f32) :
    { L4 : List (View.Piece (Elt F) S1024x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__q_kernel i arg2 harg2 arg3 harg3 arg4 harg4 arg5 harg5 arg6 harg6) K } := by
  refine ⟨?_, fun E K => ?run⟩
  case run =>
    simp only [cc1__q_kernel_eq_skeleton]; unfold cc1__q_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem cover1
    (x0 : Vec F S1024x1536 .bf16) (x1 : Vec F S1536x3072 .bf16) (x2 : Vec F S1024x64 .f32) (x3 : Vec F S1024x64 .f32) (y : S1024x3072.Idx) :
    ∃ pc ∈ (kernelRun1 c i arg2 harg2 arg3 harg3 arg4 harg4 arg5 harg5 arg6 harg6 x0 x1 x2 x3).1, y ∈ pc.1.set :=
  View.cover_of_tiledL (kernelRun1 c i arg2 harg2 arg3 harg3 arg4 harg4 arg5 harg5 arg6 harg6 x0 x1 x2 x3).1 S1024x3072.size (by sl_kernel_rfl) y

def out1
    (x0 : Vec F S1024x1536 .bf16) (x1 : Vec F S1536x3072 .bf16) (x2 : Vec F S1024x64 .f32) (x3 : Vec F S1024x64 .f32) : Vec F S1024x3072 .f32 :=
  VO1.read (Elt F) (VO1.writes (Elt F) VO1.junk (kernelRun1 c i arg2 harg2 arg3 harg3 arg4 harg4 arg5 harg5 arg6 harg6 x0 x1 x2 x3).1)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1; (try dsimp only)
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  iframe H0 H1 H2 H3
  isplitl [H4]; · iexists _; iexact H4
  iintro ⟨H0, H1, H2, H3, ⟨%e4, H4⟩⟩
  iframe HΦ Ho H0 H1 H2 H3
  unfold owns; iexists _; isplitr
  swap; · iexact H4
  ipureintro; exact View.read_writes_of_cover _ _ _ _ _ (cover1 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2RunA.lean ====
import proofs.«125229_j77395310674148_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole) (hc0 : cond2_0 i) (hc1 : ¬cond2_1 i)
    (x0 : Vec F S1024x1792 .f32) (x1 : Vec F S1792x576 .bf16) (x2 : Vec F S1024x64 .f32) (x3 : Vec F S1024x64 .f32) (x4 : Vec F S512 .f32) :
    { LS0 : List (View.Piece (Elt F) S1024x576 .f32) //
      ∀ (xi5 : Vec F S1024x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__kv_kernel i arg2 harg2 arg3 harg3 arg4 harg4 arg5 harg5 arg6 harg6 arg7 harg7 arg8 harg8) K } := by
  refine ⟨?_, fun xi5 E K => ?run⟩
  case run =>
    simp only [cc2__kv_kernel_eq_skeleton]; unfold cc2__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R2RunB.lean ====
import proofs.«125229_j77395310674148_1_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole) (hc0 : ¬cond2_0 i) (hc1 : ¬cond2_1 i)
    (x0 : Vec F S1024x1792 .f32) (x1 : Vec F S1792x576 .bf16) (x2 : Vec F S1024x64 .f32) (x3 : Vec F S1024x64 .f32) (x4 : Vec F S512 .f32) (xs0 : Vec F S1024x576 .f32) :
    { LS0 : List (View.Piece (Elt F) S1024x576 .f32) //
      ∀ (xi5 : Vec F S1024x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__kv_kernel i arg2 harg2 arg3 harg3 arg4 harg4 arg5 harg5 arg6 harg6 arg7 harg7 arg8 harg8) K } := by
  refine ⟨?_, fun xi5 E K => ?run⟩
  case run =>
    simp only [cc2__kv_kernel_eq_skeleton]; unfold cc2__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R2RunC.lean ====
import proofs.«125229_j77395310674148_1_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole) (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) :
    Σ' (L5 : List (View.Piece (Elt F) S1024x576 .f32)), { LS0 : List (View.Piece (Elt F) S1024x576 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__kv_kernel i arg2 harg2 arg3 harg3 arg4 harg4 arg5 harg5 arg6 harg6 arg7 harg7 arg8 harg8) K } := by
  refine ⟨?_, ?_, fun E K => ?run⟩
  case run =>
    simp only [cc2__kv_kernel_eq_skeleton]; unfold cc2__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R2.lean ====
import proofs.«125229_j77395310674148_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section
variable (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole)

theorem scover2_A (hc0 : cond2_0 i) (hc1 : ¬cond2_1 i)
    (x0 : Vec F S1024x1792 .f32) (x1 : Vec F S1792x576 .bf16) (x2 : Vec F S1024x64 .f32) (x3 : Vec F S1024x64 .f32) (x4 : Vec F S512 .f32) (y : S1024x576.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S1024x576.size (by sl_kernel_rfl) y

def sout2_A (hc0 : cond2_0 i) (hc1 : ¬cond2_1 i)
    (x0 : Vec F S1024x1792 .f32) (x1 : Vec F S1792x576 .bf16) (x2 : Vec F S1024x64 .f32) (x3 : Vec F S1024x64 .f32) (x4 : Vec F S512 .f32) : Vec F S1024x576 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem scover2_B (hc0 : ¬cond2_0 i) (hc1 : ¬cond2_1 i)
    (x0 : Vec F S1024x1792 .f32) (x1 : Vec F S1792x576 .bf16) (x2 : Vec F S1024x64 .f32) (x3 : Vec F S1024x64 .f32) (x4 : Vec F S512 .f32) (xs0 : Vec F S1024x576 .f32) (y : S1024x576.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S1024x576.size (by sl_kernel_rfl) y

def sout2_B (hc0 : ¬cond2_0 i) (hc1 : ¬cond2_1 i)
    (x0 : Vec F S1024x1792 .f32) (x1 : Vec F S1792x576 .bf16) (x2 : Vec F S1024x64 .f32) (x3 : Vec F S1024x64 .f32) (x4 : Vec F S512 .f32) (xs0 : Vec F S1024x576 .f32) : Vec F S1024x576 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).1)

theorem cover2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) (y : S1024x576.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x576.size (by sl_kernel_rfl) y

def out2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) : Vec F S1024x576 .f32 :=
  VO2.read (Elt F) (VO2.writes (Elt F) VO2.junk (kernelRun2_C c i arg2 harg2 arg3 harg3 arg4 harg4 arg5 harg5 arg6 harg6 arg7 harg7 arg8 harg8 hc0 hc1 x0 x1 x2 x3 x4 xs0).1)

theorem scover2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) (y : S1024x576.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x576.size (by sl_kernel_rfl) y

def sout2_C (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) : Vec F S1024x576 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)

end

def idleOut2 : Vec F S1024x576 .f32 := VO2.read (Elt F) VO2.junk

def outsAt2 (c : Dev nD) : (n : ℕ) → n < cfg2.N → Vec F S1024x576 .f32 × Vec F S1024x576 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => by have h' := (hcond2_1 ⟨n + 1, hn⟩).mp h; (try dsimp only at h'); omega) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ ((∃ d, owns (c : Thread nD τ) scM2 fullShare d) -∗ Pipeline.ΦA spec2 c))

theorem PhiS2_succ (c : Dev nD) (n : ℕ) (hn : n < cfg2.N) :
    PhiS2 V c (n + 1) hn = iprop(owns (c : Thread nD τ) scM2 fullShare ((outsAt2 V c n hn).2) ∗ ((∃ d, owns (c : Thread nD τ) scM2 fullShare d) -∗ Pipeline.ΦA spec2 c)) := rfl

theorem PhiS2_pos (c : Dev nD) (n : ℕ) (h : n ≤ cfg2.N) (hz : n ≠ 0) :
    PhiS2 V c n h = iprop(owns (c : Thread nD τ) scM2 fullShare ((outsAt2 V c (n - 1) (by omega)).2) ∗ ((∃ d, owns (c : Thread nD τ) scM2 fullShare d) -∗ Pipeline.ΦA spec2 c)) := by
  cases n with
  | zero => exact absurd rfl hz
  | succ n => rfl

theorem PhiS2_acc (c : Dev nD) (n : ℕ) (h : n ≤ cfg2.N) :
    PhiS2 V c n h ⊢ iprop((∃ d, owns (c : Thread nD τ) scM2 fullShare d) ∗ ((∃ d, owns (c : Thread nD τ) scM2 fullShare d) -∗ Pipeline.ΦA spec2 c)) := by
  cases n with
  | zero => exact PhiA2_split c
  | succ n =>
    rw [PhiS2_succ]
    iintro ⟨HS0, Hw⟩
    isplitl [HS0]; · iexists _; iexact HS0
    iexact Hw

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare (iblk2 V c 4 t) := by
  unfold Dat.leavesExact; rw [liveAt2_4 t, after2_4]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 16 := lt_of_lt_of_eq t.isLt (show cfg2.N = 16 from N_2)
  by_cases h0 : t.val % 4 = 0
  · have h1 : ¬t.val % 4 = 3 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    rw [PhiS2_castSucc V c t]
    iintro ⟨HΦ, Ho, ⟨%d0, H0⟩, ⟨%d1, H1⟩, ⟨%d2, H2⟩, ⟨%d3, H3⟩, ⟨%d4, H4⟩, ⟨%d5, H5⟩⟩
    ihave HΦ' := (PhiS2_acc V c _ _) $$ HΦ
    icases HΦ' with ⟨HS0, Hw⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 _ Set.univ _)
    iframe H0 H1 H2 H3 H4 H5 HS0
    iintro ⟨H0, H1, H2, H3, H4, H5, ⟨%es0, HS0⟩⟩
    isplitl [HS0 Hw]
    · isplitl [HS0]
      · unfold owns; iexists _; isplitr
        swap; · iexact HS0
        ipureintro; exact View.read_writes_of_cover _ _ _ _ _ (scover2_A c _ _ _ _ _ _ _ _ _ _ _ _ _ _ _ _ _ _ _ _ _ _)
      iexact Hw
    iframe Ho H0 H1 H2 H3 H4
    iexists _; iexact H5
  · have hz : t.val ≠ 0 := by omega
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨HS0, Hw⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      iframe H0 H1 H2 H3 H4
      isplitl [H5]; · iexists _; iexact H5
      isplitl [HS0]; · iexact HS0
      iintro ⟨H0, H1, H2, H3, H4, ⟨%e5, H5⟩, ⟨%es0, HS0⟩⟩
      isplitl [HS0 Hw]
      · isplitl [HS0]
        · unfold owns; iexists _; isplitr
          swap; · iexact HS0
          ipureintro; exact View.read_writes_of_cover _ _ _ _ _ (scover2_C c _ _ _ _ _ _ _ _ _ _ _ _ _ _ _ _ _ _ _ _ _ _ _)
        iexact Hw
      iframe Ho H0 H1 H2 H3 H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨HS0, Hw⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 _ Set.univ _)
      iframe H0 H1 H2 H3 H4 H5 HS0
      iintro ⟨H0, H1, H2, H3, H4, H5, ⟨%es0, HS0⟩⟩
      isplitl [HS0 Hw]
      · isplitl [HS0]
        · unfold owns; iexists _; isplitr
          swap; · iexact HS0
          ipureintro; exact View.read_writes_of_cover _ _ _ _ _ (scover2_B c _ _ _ _ _ _ _ _ _ _ _ _ _ _ _ _ _ _ _ _ _ _ _)
        iexact Hw
      iframe Ho H0 H1 H2 H3 H4
      iexists _; iexact H5

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega)]
  iintro ⟨HS0, Hw⟩
  iapply Hw
  iexists _; iexact HS0

end Cert.KernelIdeal.Hand

end
-- ==== Proof.KI.Main.lean ====
import proofs.«125229_j77395310674148_1_alg».proof.Proof.KI.R0
import proofs.«125229_j77395310674148_1_alg».proof.Proof.KI.R1
import proofs.«125229_j77395310674148_1_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps3 (W4 m ρ c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have h : ((dat0 (V1 m ρ) c).Φ (Fin.last cfg0.N) : sProp 𝕄) ⊢ iprop(Pipeline.scopedRest spec0 c ∗ ∃ r, prngReg c r) := by
      have h' := hout0 (V1 m ρ) c; unfold Pipeline.ΦA at h'; exact h'
    rw [Pipeline.ownSems0_none, show (pdats m ρ 0 c).Φ (Fin.last _) = (dat0 (V1 m ρ) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    have h : ((dat2 (V3 m ρ) c).Φ (Fin.last cfg2.N) : sProp 𝕄) ⊢ iprop(Pipeline.scopedRest spec2 c ∗ ∃ r, prngReg c r) := by
      have h' := hout2 (V3 m ρ) c; unfold Pipeline.ΦA at h'; exact h'
    rw [Pipeline.ownSems0_none, show (pdats m ρ 2 c).Φ (Fin.last _) = (dat2 (V3 m ρ) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .host (hseg hostOps3 hostOps3_sub hostOps3_fresh' (W4 m ρ)) ]

theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => StableHlo.held (c : Thread nD τ) (Pipeline.ucRefs τ sig) (W5 m ρ c))
    (hch := ⟨fun _ => .rfl, fun _ => .rfl, fun _ => .rfl, fun _ => .rfl, fun _ => .rfl, fun c => sep_mono .rfl (by iintro ⟨-, Ho⟩; iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨Hh, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Frame.lean ====
import proofs.«125229_j77395310674148_1_alg».proof.Proof.KI.Main

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD) (b : Ref sig .tc)

/-- A region changes only its output array. -/
theorem keep0 (hb : b ≠ main_v3) : W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w
      ((by decide : ∀ w : Fin cfg0.W, Pipeline.arrRef spec0 w ≠ main_v3 → (cfg0.win w).isOut = false) w hb) _).trans (A_eq0 (V1 m ρ) c w))
  · exact W2_of_ne m ρ c b fun w e => h ⟨w, e⟩

theorem keep1 (hb : b ≠ main_v4) : W3 m ρ c (Proc.devRef .tc b) = W2 m ρ c (Proc.devRef .tc b) := by
  by_cases h : ∃ w, Pipeline.arrRef spec1 w = b
  · obtain ⟨w, rfl⟩ := h
    exact (W3_arr m ρ c w).trans (((dat1 (V2 m ρ) c).arrAt_in w
      ((by decide : ∀ w : Fin cfg1.W, Pipeline.arrRef spec1 w ≠ main_v4 → (cfg1.win w).isOut = false) w hb) _).trans (A_eq1 (V2 m ρ) c w))
  · exact W3_of_ne m ρ c b fun w e => h ⟨w, e⟩

theorem keep2 (hb : b ≠ main_v5) : W4 m ρ c (Proc.devRef .tc b) = W3 m ρ c (Proc.devRef .tc b) := by
  by_cases h : ∃ w, Pipeline.arrRef spec2 w = b
  · obtain ⟨w, rfl⟩ := h
    exact (W4_arr m ρ c w).trans (((dat2 (V3 m ρ) c).arrAt_in w
      ((by decide : ∀ w : Fin cfg2.W, Pipeline.arrRef spec2 w ≠ main_v5 → (cfg2.win w).isOut = false) w hb) _).trans (A_eq2 (V3 m ρ) c w))
  · exact W4_of_ne m ρ c b fun w e => h ⟨w, e⟩

/-- A host stretch changes only its operations' results. -/
theorem keepH0 (hb : b ≠ main_v0 ∧ b ≠ main_v1 ∧ b ≠ main_v2) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne hb.1, StableHlo.devRef_ne_of_ne hb.2.1, StableHlo.devRef_ne_of_ne hb.2.2⟩))).trans rfl

theorem keepH3 (hb : b ≠ main_v6) : W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.binary_writes, Finset.mem_singleton]
    exact StableHlo.devRef_ne_of_ne hb))

/-- A buffer that no item changes ends as launched. -/
theorem W5_keep (hb : b ≠ main_v0 ∧ b ≠ main_v1 ∧ b ≠ main_v2 ∧ b ≠ main_v3 ∧ b ≠ main_v4 ∧ b ≠ main_v5 ∧ b ≠ main_v6) :
    W5 m ρ c (Proc.devRef .tc b) = m ((c : Thread nD τ).loc b) :=
  (keepH3 m ρ c b hb.2.2.2.2.2.2).trans <| (keep2 m ρ c b hb.2.2.2.2.2.1).trans <| (keep1 m ρ c b hb.2.2.2.2.1).trans <|
    (keep0 m ρ c b hb.2.2.2.1).trans (keepH0 m ρ c b ⟨hb.1, hb.2.1, hb.2.2.1⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W5_keep m ρ c _ (by decide)),
     (h c _ (mem_uc main_arg1 (by decide))).trans (W5_keep m ρ c _ (by decide)),
     (h c _ (mem_uc main_arg2 (by decide))).trans (W5_keep m ρ c _ (by decide)),
     (h c _ (mem_uc main_arg3 (by decide))).trans (W5_keep m ρ c _ (by decide)),
     (h c _ (mem_uc main_arg4 (by decide))).trans (W5_keep m ρ c _ (by decide)),
     (h c _ (mem_uc main_arg5 (by decide))).trans (W5_keep m ρ c _ (by decide)),
     (h c _ (mem_uc main_arg6 (by decide))).trans (W5_keep m ρ c _ (by decide)),
     (h c _ (mem_uc main_arg7 (by decide))).trans (W5_keep m ρ c _ (by decide))⟩)
    (run_main m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Sx : Shape := ⟨2, ![4096, 7168]⟩
abbrev Swa : Shape := ⟨2, ![7168, 1536]⟩
abbrev Swb : Shape := ⟨2, ![1536, 24576]⟩
abbrev Swkv : Shape := ⟨2, ![7168, 576]⟩
abbrev Srope : Shape := ⟨2, ![4096, 64]⟩
abbrev Sg1 : Shape := ⟨1, ![1536]⟩
abbrev Sg2 : Shape := ⟨1, ![512]⟩
abbrev Scq : Shape := ⟨2, ![4096, 1536]⟩
abbrev Sq : Shape := ⟨2, ![4096, 24576]⟩
abbrev Skv : Shape := ⟨2, ![4096, 576]⟩
abbrev Sout : Shape := ⟨2, ![4096, 25152]⟩

abbrev eps : EReal := Ideal.ofBits .f32 0x358637BD#32

abbrev c1536 : EReal := Ideal.ofBits .f32 0x44C00000#32
abbrev c512 : EReal := Ideal.ofBits .f32 0x44000000#32

-- Half rotation on 64 entries: entry r is paired with entry r ± 32.
def ropeAt (v cs sn : Fin 64 → EReal) (r : Fin 64) : EReal :=
  v r * cs r + (if h : r.val < 32 then -(v ⟨r.val + 32, by omega⟩) else v ⟨r.val - 32, by omega⟩) * sn r

def P1 (x : FVec Ideal Sx .f32) (wa : FVec Ideal Swa .f32) (t : Fin 4096) (d : Fin 1536) : EReal :=
  ∑ k : Fin 7168, x (ix2 t k) * wa (ix2 k d)

-- A row of x · wa, scaled by the reciprocal root of its mean square plus eps, then by the gain.
def cqAt (x : FVec Ideal Sx .f32) (wa : FVec Ideal Swa .f32) (g1 : FVec Ideal Sg1 .f32) (t : Fin 4096) (d : Fin 1536) : EReal :=
  (P1 x wa t d * Ideal.rsqrt (Ideal.div (∑ e : Fin 1536, P1 x wa t e * P1 x wa t e) c1536 + eps)) * g1 (ix1 d)

def cqArr (x : FVec Ideal Sx .f32) (wa : FVec Ideal Swa .f32) (g1 : FVec Ideal Sg1 .f32) : FVec Ideal Scq .f32 :=
  fun j => cqAt x wa g1 (j 0) (j 1)

def Q (cq : FVec Ideal Scq .f32) (wb : FVec Ideal Swb .f32) (t : Fin 4096) (j : Fin 24576) : EReal :=
  ∑ d : Fin 1536, cq (ix2 t d) * wb (ix2 d j)

-- Column j is position j % 192 of head j / 192; the last 64 positions of a head are rotated.
def queryAt (cq : FVec Ideal Scq .f32) (wb : FVec Ideal Swb .f32) (cs sn : FVec Ideal Srope .f32) (t : Fin 4096) (j : Fin 24576) : EReal :=
  if hp : j.val % 192 < 128 then Q cq wb t j
  else ropeAt (fun r => Q cq wb t ⟨192 * (j.val / 192) + 128 + r.val, by omega⟩) (fun r => cs (ix2 t r)) (fun r => sn (ix2 t r)) ⟨j.val % 192 - 128, by omega⟩

def queryArr (cq : FVec Ideal Scq .f32) (wb : FVec Ideal Swb .f32) (cs sn : FVec Ideal Srope .f32) : FVec Ideal Sq .f32 :=
  fun j => queryAt cq wb cs sn (j 0) (j 1)

def P3 (x : FVec Ideal Sx .f32) (wkv : FVec Ideal Swkv .f32) (t : Fin 4096) (e : Fin 576) : EReal :=
  ∑ k : Fin 7168, x (ix2 t k) * wkv (ix2 k e)

-- Of x · wkv the first 512 columns are normalised like the rows above, the last 64 rotated.
def kvAt (x : FVec Ideal Sx .f32) (wkv : FVec Ideal Swkv .f32) (cs sn : FVec Ideal Srope .f32) (g2 : FVec Ideal Sg2 .f32) (t : Fin 4096) (e : Fin 576) : EReal :=
  if he : e.val < 512 then
    (P3 x wkv t e * Ideal.rsqrt (Ideal.div (∑ f : Fin 512, P3 x wkv t ⟨f.val, by omega⟩ * P3 x wkv t ⟨f.val, by omega⟩) c512 + eps)) * g2 (ix1 ⟨e.val, he⟩)
  else ropeAt (fun r => P3 x wkv t ⟨512 + r.val, by omega⟩) (fun r => cs (ix2 t r)) (fun r => sn (ix2 t r)) ⟨e.val - 512, by omega⟩

def kvArr (x : FVec Ideal Sx .f32) (wkv : FVec Ideal Swkv .f32) (cs sn : FVec Ideal Srope .f32) (g2 : FVec Ideal Sg2 .f32) : FVec Ideal Skv .f32 :=
  fun j => kvAt x wkv cs sn g2 (j 0) (j 1)

-- The 24576 query columns, then the 576 of the second path.
def outAt (x : FVec Ideal Sx .f32) (wa : FVec Ideal Swa .f32) (wb : FVec Ideal Swb .f32) (wkv : FVec Ideal Swkv .f32)
    (cs sn : FVec Ideal Srope .f32) (g1 : FVec Ideal Sg1 .f32) (g2 : FVec Ideal Sg2 .f32) (t : Fin 4096) (j : Fin 25152) : EReal :=
  if hj : j.val < 24576 then queryAt (cqArr x wa g1) wb cs sn t ⟨j.val, hj⟩
  else kvAt x wkv cs sn g2 t ⟨j.val - 24576, by omega⟩

def outArr (x : FVec Ideal Sx .f32) (wa : FVec Ideal Swa .f32) (wb : FVec Ideal Swb .f32) (wkv : FVec Ideal Swkv .f32)
    (cs sn : FVec Ideal Srope .f32) (g1 : FVec Ideal Sg1 .f32) (g2 : FVec Ideal Sg2 .f32) : FVec Ideal Sout .f32 :=
  fun j => outAt x wa wb wkv cs sn g1 g2 (j 0) (j 1)

end Cert.Spec

end
-- ==== Proof.KI.VMain.lean ====
import proofs.«125229_j77395310674148_1_alg».proof.Proof.KI.Frame
import proofs.«125229_j77395310674148_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx

variable (m : (ℓ : Loc nD τ sig) → Buf (Elt Ideal) ℓ) (ρ : Dev nD → PrngReg)

theorem W1_main_v0 (c : Dev nD) : (W1 m ρ c (Proc.devRef .tc main_v0) : S7168x1536.Idx → EReal) = (m ((c : Thread nD τ).loc main_arg1)) := by
  dsimp only [W1, W0, hostOps0]; after_results; rfl
theorem W1_main_v1 (c : Dev nD) : (W1 m ρ c (Proc.devRef .tc main_v1) : S1536x24576.Idx → EReal) = (m ((c : Thread nD τ).loc main_arg2)) := by
  dsimp only [W1, W0, hostOps0]; after_results; rfl
theorem W1_main_v2 (c : Dev nD) : (W1 m ρ c (Proc.devRef .tc main_v2) : S7168x576.Idx → EReal) = (m ((c : Thread nD τ).loc main_arg3)) := by
  dsimp only [W1, W0, hostOps0]; after_results; rfl
theorem W5_main_v6 (c : Dev nD) : W5 m ρ c (Proc.devRef .tc main_v6)
    = concatenate S4096x25152 1 [⟨S4096x24576, W4 m ρ c (Proc.devRef .tc main_v4)⟩, ⟨S4096x576, W4 m ρ c (Proc.devRef .tc main_v5)⟩] concatenates_S4096x24576_S4096x576_S4096x25152_d1 := by
  dsimp only [W5, hostOps3]; after_results

theorem result_eq
    (h0 : ∀ (V : (c : Dev nD) → (b : Ref sig .tc) → Buf (Elt Ideal) ((c : Thread nD τ).loc b)) (c : Dev nD), (dat0 (F := Ideal) V c).arrAt 3 cfg0.N = cqArr (V c main_arg0) (V c main_v0) (V c main_arg6))
    (h1 : ∀ (V : (c : Dev nD) → (b : Ref sig .tc) → Buf (Elt Ideal) ((c : Thread nD τ).loc b)) (c : Dev nD), (dat1 (F := Ideal) V c).arrAt 4 cfg1.N = queryArr (V c main_v3) (V c main_v1) (V c main_arg4) (V c main_arg5))
    (h2 : ∀ (V : (c : Dev nD) → (b : Ref sig .tc) → Buf (Elt Ideal) ((c : Thread nD τ).loc b)) (c : Dev nD), (dat2 (F := Ideal) V c).arrAt 5 cfg2.N = kvArr (V c main_arg0) (V c main_v2) (V c main_arg4) (V c main_arg5) (V c main_arg7))
    (c : Dev nD) :
    W5 m ρ c (Proc.devRef .tc main_v6)
      = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by

  have e3 : V2 m ρ c main_v3 = cqArr (m ((c : Thread nD τ).loc main_arg0)) (m ((c : Thread nD τ).loc main_arg1)) (m ((c : Thread nD τ).loc main_arg6)) := by
    have a0 : V1 m ρ c main_arg0 = (m ((c : Thread nD τ).loc main_arg0)) := keepH0 m ρ c main_arg0 (by decide)
    have a6 : V1 m ρ c main_arg6 = (m ((c : Thread nD τ).loc main_arg6)) := keepH0 m ρ c main_arg6 (by decide)
    have a1 : V1 m ρ c main_v0 = (m ((c : Thread nD τ).loc main_arg1)) := W1_main_v0 m ρ c
    have := (W2_arr m ρ c 3).trans (h0 (V1 m ρ) c)
    rw [a0, a1, a6] at this
    exact this

  have e4 : W4 m ρ c (Proc.devRef .tc main_v4) = queryArr (cqArr (m ((c : Thread nD τ).loc main_arg0)) (m ((c : Thread nD τ).loc main_arg1)) (m ((c : Thread nD τ).loc main_arg6))) (m ((c : Thread nD τ).loc main_arg2)) (m ((c : Thread nD τ).loc main_arg4)) (m ((c : Thread nD τ).loc main_arg5)) := by
    have a1 : V2 m ρ c main_v1 = (m ((c : Thread nD τ).loc main_arg2)) := (keep0 m ρ c main_v1 (by decide)).trans (W1_main_v1 m ρ c)
    have a4 : V2 m ρ c main_arg4 = (m ((c : Thread nD τ).loc main_arg4)) := (keep0 m ρ c main_arg4 (by decide)).trans (keepH0 m ρ c main_arg4 (by decide))
    have a5 : V2 m ρ c main_arg5 = (m ((c : Thread nD τ).loc main_arg5)) := (keep0 m ρ c main_arg5 (by decide)).trans (keepH0 m ρ c main_arg5 (by decide))
    have := (keep2 m ρ c main_v4 (by decide)).trans ((W3_arr m ρ c 4).trans (h1 (V2 m ρ) c))
    rw [e3, a1, a4, a5] at this
    exact this

  have e5 : W4 m ρ c (Proc.devRef .tc main_v5) = kvArr (m ((c : Thread nD τ).loc main_arg0)) (m ((c : Thread nD τ).loc main_arg3)) (m ((c : Thread nD τ).loc main_arg4)) (m ((c : Thread nD τ).loc main_arg5)) (m ((c : Thread nD τ).loc main_arg7)) := by
    have a0 : V3 m ρ c main_arg0 = (m ((c : Thread nD τ).loc main_arg0)) := (keep1 m ρ c main_arg0 (by decide)).trans ((keep0 m ρ c main_arg0 (by decide)).trans (keepH0 m ρ c main_arg0 (by decide)))
    have a2 : V3 m ρ c main_v2 = (m ((c : Thread nD τ).loc main_arg3)) := (keep1 m ρ c main_v2 (by decide)).trans ((keep0 m ρ c main_v2 (by decide)).trans (W1_main_v2 m ρ c))
    have a4 : V3 m ρ c main_arg4 = (m ((c : Thread nD τ).loc main_arg4)) := (keep1 m ρ c main_arg4 (by decide)).trans ((keep0 m ρ c main_arg4 (by decide)).trans (keepH0 m ρ c main_arg4 (by decide)))
    have a5 : V3 m ρ c main_arg5 = (m ((c : Thread nD τ).loc main_arg5)) := (keep1 m ρ c main_arg5 (by decide)).trans ((keep0 m ρ c main_arg5 (by decide)).trans (keepH0 m ρ c main_arg5 (by decide)))
    have a7 : V3 m ρ c main_arg7 = (m ((c : Thread nD τ).loc main_arg7)) := (keep1 m ρ c main_arg7 (by decide)).trans ((keep0 m ρ c main_arg7 (by decide)).trans (keepH0 m ρ c main_arg7 (by decide)))
    have := (W4_arr m ρ c 5).trans (h2 (V3 m ρ) c)
    rw [a0, a2, a4, a5, a7] at this
    exact this
  rw [W5_main_v6, e4, e5]
  funext j
  unfold outArr outAt
  by_cases hj : (j 1).val < 24576
  · rw [dif_pos hj]
    exact concatenate_pair_apply_left (s₁ := S4096x24576) (s₂ := S4096x576) (1 : Fin 2) _ _ concatenates_S4096x24576_S4096x576_S4096x25152_d1 j rfl
      (ix2 (n0 := 4096) (n1 := 24576) (j 0) ⟨(j 1).val, hj⟩)
      (fun b => match b with | ⟨0, _⟩ => rfl | ⟨1, _⟩ => rfl)
  · rw [dif_neg hj]
    have hlt : (j 1).val < 25152 := (j 1).isLt
    have hj' : (j 1).val - 24576 < 576 := by omega
    exact concatenate_pair_apply_right (s₁ := S4096x24576) (s₂ := S4096x576) (1 : Fin 2) _ _ concatenates_S4096x24576_S4096x576_S4096x25152_d1 j rfl rfl
      (ix2 (n0 := 4096) (n1 := 576) (j 0) ⟨(j 1).val - 24576, hj'⟩)
      (fun b hb => by
        have hb0 : b.val ≠ 1 := fun h => hb (Fin.ext h)
        have hb2 : b.val < 2 := b.isLt
        obtain rfl : b = ⟨0, by decide⟩ := Fin.ext (by show b.val = 0; omega)
        rfl)
      (by show (j 1).val - 24576 + 24576 = (j 1).val; omega)

end Cert.KernelIdeal.Hand

end
-- ==== Proof.KI.Pieces.lean ====
import proofs.«125229_j77395310674148_1_alg».proof.Proof.KI.R0
import proofs.«125229_j77395310674148_1_alg».proof.Proof.KI.R1
import proofs.«125229_j77395310674148_1_alg».proof.Proof.KI.R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off2_zero : (![0, 0] : Fin 2 → Nat) = fun _ => 0 := by funext a; fin_cases a <;> rfl

private theorem off1_zero : (![0] : Fin 1 → Nat) = fun _ => 0 := by funext a; fin_cases a; rfl

section
variable (c : Dev nD) (i : grid0.Coords) (arg2 : Memref sig .tc .vmem S1024x1792 .f32) (harg2 : arg2.IsWhole) (arg3 : Memref sig .tc .vmem S1792x1536 .bf16) (harg3 : arg3.IsWhole) (arg4 : Memref sig .tc .vmem S1536 .f32) (harg4 : arg4.IsWhole) (arg5 : Memref sig .tc .vmem S1024x1536 .bf16) (harg5 : arg5.IsWhole) (arg6 : Memref sig .tc .vmem S1024x1536 .f32) (harg6 : arg6.IsWhole)

theorem sout0_A_eq (hc0 : cond0_0 i) (hc1 : ¬cond0_1 i)
    (x0 : Vec F S1024x1792 .f32) (x1 : Vec F S1792x1536 .bf16) (x2 : Vec F S1536 .f32) :
    sout0_A c i arg2 harg2 arg3 harg3 arg4 harg4 arg5 harg5 arg6 harg6 hc0 hc1 x0 x1 x2 = k0_pay2 x0 (k0_pay1 (F := F)) x1 := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x1536) off2_zero]
  simp only [View.readAt_eq_ld, harg2.read_unread, harg3.read_unread, harg4.read_unread, harg5.read_unread, harg6.read_unread,
    View.ld_unit_zero (S := S1024x1792) off2_zero, View.ld_unit_zero (S := S1024x1536) off2_zero, View.ld_unit_zero (S := S1792x1536) off2_zero, View.ld_unit_zero (S := S1536) off1_zero,
    View.readCov_unit_zero (S := S1024x1536) _ off2_zero]

theorem sout0_B_eq (hc0 : ¬cond0_0 i) (hc1 : ¬cond0_1 i)
    (x0 : Vec F S1024x1792 .f32) (x1 : Vec F S1792x1536 .bf16) (x2 : Vec F S1536 .f32) (xs0 : Vec F S1024x1536 .f32) :
    sout0_B c i arg2 harg2 arg3 harg3 arg4 harg4 arg5 harg5 arg6 harg6 hc0 hc1 x0 x1 x2 xs0 = k0_pay2 x0 xs0 x1 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero (S := S1024x1536) off2_zero]
  simp only [View.readAt_eq_ld, harg2.read_unread, harg3.read_unread, harg4.read_unread, harg5.read_unread, harg6.read_unread,
    View.ld_unit_zero (S := S1024x1792) off2_zero, View.ld_unit_zero (S := S1024x1536) off2_zero, View.ld_unit_zero (S := S1792x1536) off2_zero, View.ld_unit_zero (S := S1536) off1_zero,
    View.readCov_unit_zero (S := S1024x1536) _ off2_zero]

theorem sout0_C_eq (hc0 : ¬cond0_0 i) (hc1 : cond0_1 i)
    (x0 : Vec F S1024x1792 .f32) (x1 : Vec F S1792x1536 .bf16) (x2 : Vec F S1536 .f32) (xs0 : Vec F S1024x1536 .f32) :
    sout0_C c i arg2 harg2 arg3 harg3 arg4 harg4 arg5 harg5 arg6 harg6 hc0 hc1 x0 x1 x2 xs0 = k0_pay2 x0 xs0 x1 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero (S := S1024x1536) off2_zero]
  simp only [View.readAt_eq_ld, harg2.read_unread, harg3.read_unread, harg4.read_unread, harg5.read_unread, harg6.read_unread,
    View.ld_unit_zero (S := S1024x1792) off2_zero, View.ld_unit_zero (S := S1024x1536) off2_zero, View.ld_unit_zero (S := S1792x1536) off2_zero, View.ld_unit_zero (S := S1536) off1_zero,
    View.readCov_unit_zero (S := S1024x1536) _ off2_zero]

theorem out0_C_eq (hc0 : ¬cond0_0 i) (hc1 : cond0_1 i)
    (x0 : Vec F S1024x1792 .f32) (x1 : Vec F S1792x1536 .bf16) (x2 : Vec F S1536 .f32) (xs0 : Vec F S1024x1536 .f32) :
    out0_C c i arg2 harg2 arg3 harg3 arg4 harg4 arg5 harg5 arg6 harg6 hc0 hc1 x0 x1 x2 xs0 = k0_pay3 (k0_pay2 x0 xs0 x1) x2 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero (S := S1024x1536) off2_zero]
  simp only [View.readAt_eq_ld, harg2.read_unread, harg3.read_unread, harg4.read_unread, harg5.read_unread, harg6.read_unread,
    View.ld_unit_zero (S := S1024x1792) off2_zero, View.ld_unit_zero (S := S1024x1536) off2_zero, View.ld_unit_zero (S := S1792x1536) off2_zero, View.ld_unit_zero (S := S1536) off1_zero,
    View.readCov_unit_zero (S := S1024x1536) _ off2_zero]

end

theorem out1_eq (c : Dev nD) (i : grid1.Coords) (arg2 : Memref sig .tc .vmem S1024x1536 .bf16) (harg2 : arg2.IsWhole) (arg3 : Memref sig .tc .vmem S1536x3072 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S1024x3072 .f32) (harg6 : arg6.IsWhole)
    (x0 : Vec F S1024x1536 .bf16) (x1 : Vec F S1536x3072 .bf16) (x2 x3 : Vec F S1024x64 .f32) :
    out1 c i arg2 harg2 arg3 harg3 arg4 harg4 arg5 harg5 arg6 harg6 x0 x1 x2 x3 = k1_pay1 x0 x1 x2 x3 := by
  unfold out1
  rw [View.read_writes_eq_canon _ _ _ (cover1 c i arg2 harg2 arg3 harg3 arg4 harg4 arg5 harg5 arg6 harg6 x0 x1 x2 x3)]
  unfold kernelRun1
  dsimp only
  sl_unfold_words
  rw [View.canon_unit_zero (S := S1024x3072) off2_zero]
  simp only [View.readAt_eq_ld, harg2.read_unread, harg3.read_unread, harg4.read_unread, harg5.read_unread, harg6.read_unread,
    View.ld_unit_zero (S := S1024x1536) off2_zero, View.ld_unit_zero (S := S1536x3072) off2_zero, View.ld_unit_zero (S := S1024x64) off2_zero, View.ld_unit_zero (S := S1024x3072) off2_zero,
    View.readCov_unit_zero (S := S1024x3072) _ off2_zero]

section
variable (c : Dev nD) (i : grid2.Coords) (arg2 : Memref sig .tc .vmem S1024x1792 .f32) (harg2 : arg2.IsWhole) (arg3 : Memref sig .tc .vmem S1792x576 .bf16) (harg3 : arg3.IsWhole) (arg4 : Memref sig .tc .vmem S1024x64 .f32) (harg4 : arg4.IsWhole) (arg5 : Memref sig .tc .vmem S1024x64 .f32) (harg5 : arg5.IsWhole) (arg6 : Memref sig .tc .vmem S512 .f32) (harg6 : arg6.IsWhole) (arg7 : Memref sig .tc .vmem S1024x576 .f32) (harg7 : arg7.IsWhole) (arg8 : Memref sig .tc .vmem S1024x576 .f32) (harg8 : arg8.IsWhole)

theorem sout2_A_eq (hc0 : cond2_0 i) (hc1 : ¬cond2_1 i)
    (x0 : Vec F S1024x1792 .f32) (x1 : Vec F S1792x576 .bf16) (x2 : Vec F S1024x64 .f32) (x3 : Vec F S1024x64 .f32) (x4 : Vec F S512 .f32) :
    sout2_A c i arg2 harg2 arg3 harg3 arg4 harg4 arg5 harg5 arg6 harg6 arg7 harg7 arg8 harg8 hc0 hc1 x0 x1 x2 x3 x4 = k2_pay2 x0 (k2_pay1 (F := F)) x1 := by
  unfold sout2_A
  rw [View.read_writes_eq_canon _ _ _ (scover2_A c i arg2 harg2 arg3 harg3 arg4 harg4 arg5 harg5 arg6 harg6 arg7 harg7 arg8 harg8 hc0 hc1 x0 x1 x2 x3 x4)]
  unfold kernelRun2_A
  dsimp only
  sl_unfold_words
  rw [View.canon_cons_unit_zero (S := S1024x576) off2_zero]
  simp only [View.readAt_eq_ld, harg2.read_unread, harg3.read_unread, harg4.read_unread, harg5.read_unread, harg6.read_unread, harg7.read_unread, harg8.read_unread,
    View.ld_unit_zero (S := S1024x1792) off2_zero, View.ld_unit_zero (S := S1024x576) off2_zero, View.ld_unit_zero (S := S1792x576) off2_zero, View.ld_unit_zero (S := S1024x64) off2_zero, View.ld_unit_zero (S := S512) off1_zero,
    View.readCov_unit_zero (S := S1024x576) _ off2_zero]

theorem sout2_B_eq (hc0 : ¬cond2_0 i) (hc1 : ¬cond2_1 i)
    (x0 : Vec F S1024x1792 .f32) (x1 : Vec F S1792x576 .bf16) (x2 : Vec F S1024x64 .f32) (x3 : Vec F S1024x64 .f32) (x4 : Vec F S512 .f32) (xs0 : Vec F S1024x576 .f32) :
    sout2_B c i arg2 harg2 arg3 harg3 arg4 harg4 arg5 harg5 arg6 harg6 arg7 harg7 arg8 harg8 hc0 hc1 x0 x1 x2 x3 x4 xs0 = k2_pay2 x0 xs0 x1 := by
  unfold sout2_B
  rw [View.read_writes_eq_canon _ _ _ (scover2_B c i arg2 harg2 arg3 harg3 arg4 harg4 arg5 harg5 arg6 harg6 arg7 harg7 arg8 harg8 hc0 hc1 x0 x1 x2 x3 x4 xs0)]
  unfold kernelRun2_B
  dsimp only
  sl_unfold_words
  rw [View.canon_unit_zero (S := S1024x576) off2_zero]
  simp only [View.readAt_eq_ld, harg2.read_unread, harg3.read_unread, harg4.read_unread, harg5.read_unread, harg6.read_unread, harg7.read_unread, harg8.read_unread,
    View.ld_unit_zero (S := S1024x1792) off2_zero, View.ld_unit_zero (S := S1024x576) off2_zero, View.ld_unit_zero (S := S1792x576) off2_zero, View.ld_unit_zero (S := S1024x64) off2_zero, View.ld_unit_zero (S := S512) off1_zero,
    View.readCov_unit_zero (S := S1024x576) _ off2_zero]

theorem sout2_C_eq (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) :
    sout2_C c i arg2 harg2 arg3 harg3 arg4 harg4 arg5 harg5 arg6 harg6 arg7 harg7 arg8 harg8 hc0 hc1 x0 x1 x2 x3 x4 xs0 = k2_pay2 x0 xs0 x1 := by
  unfold sout2_C
  rw [View.read_writes_eq_canon _ _ _ (scover2_C c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero (S := S1024x576) off2_zero]
  simp only [View.readAt_eq_ld, harg2.read_unread, harg3.read_unread, harg4.read_unread, harg5.read_unread, harg6.read_unread, harg7.read_unread, harg8.read_unread,
    View.ld_unit_zero (S := S1024x1792) off2_zero, View.ld_unit_zero (S := S1024x576) off2_zero, View.ld_unit_zero (S := S1792x576) off2_zero, View.ld_unit_zero (S := S1024x64) off2_zero, View.ld_unit_zero (S := S512) off1_zero,
    View.readCov_unit_zero (S := S1024x576) _ off2_zero]

theorem out2_C_eq (hc0 : ¬cond2_0 i) (hc1 : cond2_1 i)
    (x0 : Vec F S1024x1792 .f32) (x1 : Vec F S1792x576 .bf16) (x2 : Vec F S1024x64 .f32) (x3 : Vec F S1024x64 .f32) (x4 : Vec F S512 .f32) (xs0 : Vec F S1024x576 .f32) :
    out2_C c i arg2 harg2 arg3 harg3 arg4 harg4 arg5 harg5 arg6 harg6 arg7 harg7 arg8 harg8 hc0 hc1 x0 x1 x2 x3 x4 xs0 = k2_pay3 (k2_pay2 x0 xs0 x1) x4 x2 x3 := by
  unfold out2_C
  rw [View.read_writes_eq_canon _ _ _ (cover2_C c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero (S := S1024x576) off2_zero]
  simp only [View.readAt_eq_ld, harg2.read_unread, harg3.read_unread, harg4.read_unread, harg5.read_unread, harg6.read_unread, harg7.read_unread, harg8.read_unread,
    View.ld_unit_zero (S := S1024x1792) off2_zero, View.ld_unit_zero (S := S1024x576) off2_zero, View.ld_unit_zero (S := S1792x576) off2_zero, View.ld_unit_zero (S := S1024x64) off2_zero, View.ld_unit_zero (S := S512) off1_zero,
    View.readCov_unit_zero (S := S1024x576) _ off2_zero]

end

end Cert.KernelIdeal.Hand

end
-- ==== Proof.KI.VLib.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.VLib

open Idealize.ShloMosaic Idealize.ShloMosaic.ValueIdx
open scoped BigOperators

-- A plain [M, K] × [K, N] product into the zero splat is, at (r, d), row r against column d.
theorem mm_apply {M K N : ℕ} {φ₁ φ₂ : FTy}
    (wf : DotDims.WF ⟨2, ![M, K]⟩ ⟨2, ![K, N]⟩ ⟨2, ![M, N]⟩ [1] [0] [0] [1] [] [])
    (a : FVec Ideal ⟨2, ![M, K]⟩ φ₁) (b : FVec Ideal ⟨2, ![K, N]⟩ φ₂) (r : Fin M) (d : Fin N) :
    FloatOps.matmul ⟨[1], [0], [0], [1], [], [], wf⟩ none a b (constant ⟨2, ![M, N]⟩ .f32 0x00000000#32) (ix2 r d)
      = ∑ k : Fin K, a (ix2 r k) * b (ix2 k d) := by
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  refine congrArg₂ (fun i j => a i * b j) (funext fun x => Fin.ext ?_) (funext fun x => Fin.ext ?_)
  · match x with
    | ⟨0, _⟩ => unfold DotDims.lhsIdx; rw [dif_neg (by simp), dif_pos (by simp)]; rfl
    | ⟨1, _⟩ => exact (DotDims.lhsIdx_val_of_single _ rfl _ _).trans hk
  · match x with
    | ⟨0, _⟩ => exact (DotDims.rhsIdx_val_of_single _ rfl _ _).trans hk
    | ⟨1, _⟩ => unfold DotDims.rhsIdx; rw [dif_neg (by simp), dif_pos (by simp)]; rfl

-- Each entry of an [M, N] block times the reciprocal root of (its row's mean square plus e) times its column's gain.
theorem rmsnorm_apply {M N : ℕ} (v : FVec Ideal ⟨2, ![M, N]⟩ .f32) (g : FVec Ideal ⟨1, ![N]⟩ .f32) (c e : Ideal .f32)
    (hR : (⟨2, ![M, N]⟩ : Shape).Reduces [1] ⟨1, ![M]⟩) (hφ : FKind.Formats .f32)
    (hacc : (0x00000000#32 : BitVec (FTy.bits .f32)) = FKind.add.neutral .f32 hφ)
    (hC : (⟨1, ![M]⟩ : Shape).ShapeCasts ⟨2, ![M, 1]⟩) (hB : (⟨2, ![M, 1]⟩ : Shape).Broadcasts ⟨2, ![M, N]⟩)
    (hG : (⟨1, ![N]⟩ : Shape).ShapeCasts ⟨2, ![1, N]⟩) (hH : (⟨2, ![1, N]⟩ : Shape).Broadcasts ⟨2, ![M, N]⟩)
    (r : Fin M) (d : Fin N) :
    mulf (mulf v (broadcastTo ⟨2, ![M, N]⟩ (rsqrt (addf (divf (shapeCast ⟨2, ![M, 1]⟩
        (multiReduction .add [1] ⟨1, ![M]⟩ (mulf v v) 0x00000000#32 hR hφ hacc) hC) (broadcast ⟨2, ![M, 1]⟩ c))
        (broadcast ⟨2, ![M, 1]⟩ e))) hB)) (broadcastTo ⟨2, ![M, N]⟩ (shapeCast ⟨2, ![1, N]⟩ g hG) hH) (ix2 r d)
      = v (ix2 r d) * Ideal.rsqrt (Ideal.div (∑ j : Fin N, v (ix2 r j) * v (ix2 r j)) c + e) * g (ix1 d) := by
  simp only [mulf_apply]
  refine congrArg₂ (· * ·) (congrArg (v (ix2 r d) * ·) ?_)
    ((broadcastTo_1b_ab_apply _ _ r d).trans (shapeCast_a_1a_apply _ _ 0 d))
  refine (broadcastTo_apply _ hB (ix2 r d) (ix2 r (0 : Fin 1)) fun x => ?_).trans ?_
  · match x with
    | ⟨0, _⟩ => show r.val = if M = 1 then 0 else r.val; split <;> omega
    | ⟨1, _⟩ => rfl
  refine congrArg (fun s => Ideal.rsqrt (Ideal.div s c + e)) ?_
  refine (shapeCast_apply _ hC (ix2 r (0 : Fin 1)) (ix1 r) ?_).trans ?_
  · rw [Shape.rowMajor_val_two, Shape.rowMajor_val_one]; show r.val = r.val * 1 + 0; omega
  refine (Ideal.multiReduction_add_single _ _ hR hφ hacc (ix1 r)).trans
    (Finset.sum_congr rfl fun j _ => congrArg (fun i => v i * v i) (funext fun x => Fin.ext ?_))
  match x with
  | ⟨0, _⟩ => rfl
  | ⟨1, _⟩ => rfl

section Sum
variable {β : Type*} [AddCommMonoid β]

def ext0 {L : ℕ} (F : Fin L → β) (k : ℕ) : β := if h : k < L then F ⟨k, h⟩ else 0

theorem sum_ext0 {L : ℕ} (F : Fin L → β) : ∑ k ∈ Finset.range L, ext0 F k = ∑ k, F k :=
  (Fin.sum_univ_eq_sum_range (ext0 F) L).symm.trans (Finset.sum_congr rfl fun k _ => dif_pos k.isLt)

-- Started afresh at the first point of a run and added to K terms at a time, after point a it holds the first K (a + 1) terms.
theorem blocked_sum {N : ℕ} (J K q : ℕ) (f : (n : ℕ) → n < N → β) (F : ℕ → β)
    (hf : ∀ a n h, n = J * q + a → a < J → f n h
      = (if a = 0 then 0 else f (n - 1) (Nat.lt_of_le_of_lt (Nat.sub_le _ _) h)) + ∑ j ∈ Finset.range K, F (K * a + j)) :
    ∀ a n h, n = J * q + a → a < J → f n h = ∑ k ∈ Finset.range (K * (a + 1)), F k
  | 0, n, h, hn, ha => by
    rw [hf 0 n h hn ha, if_pos rfl, zero_add, Nat.zero_add, Nat.mul_one]
    simp only [Nat.mul_zero, Nat.zero_add]
  | a + 1, n, h, hn, ha => by
    rw [hf (a + 1) n h hn ha, if_neg (Nat.succ_ne_zero a),
      blocked_sum J K q f F hf a (n - 1) _ (by omega) (by omega), Nat.mul_succ K (a + 1), Finset.sum_range_add]

end Sum

end Cert.KernelIdeal.Hand.VLib

end
-- ==== Proof.KI.V0.lean ====
import proofs.«125229_j77395310674148_1_alg».proof.Proof.KI.Pieces
import proofs.«125229_j77395310674148_1_alg».proof.Proof.Spec
import proofs.«125229_j77395310674148_1_alg».proof.Proof.KI.VLib

noncomputable section

namespace Cert.KernelIdeal.Hand

open Cert.KernelIdeal.Gen Idealize.ShloMosaic Idealize.ShloMosaic.TcCoe Idealize.ShloMosaic.ValueIdx

namespace V0

variable (V : (c : Dev nD) → (b : Ref sig .tc) → Buf (Elt Ideal) ((c : Thread nD τ).loc b))

abbrev xArr (c : Dev nD) : FVec Ideal Cert.Spec.Sx .f32 := V c main_arg0
abbrev waArr (c : Dev nD) : FVec Ideal Cert.Spec.Swa .f32 := V c main_v0
abbrev xblk (c : Dev nD) (t : Fin cfg0.N) : Vec Ideal S1024x1792 .f32 := iblk0 V c 0 t
abbrev wblk (c : Dev nD) (t : Fin cfg0.N) : Vec Ideal S1792x1536 .bf16 := iblk0 V c 1 t
abbrev gblk (c : Dev nD) (t : Fin cfg0.N) : Vec Ideal S1536 .f32 := iblk0 V c 2 t

theorem idx0 : ∀ t : Fin cfg0.N,
    win0_0.index t 0 = t.val / 4 ∧ win0_0.index t 1 = t.val % 4 ∧ win0_1.index t 0 = t.val % 4 ∧ win0_1.index t 1 = 0
    ∧ win0_2.index t 0 = 0 ∧ win0_3.index t 0 = t.val / 4 ∧ win0_3.index t 1 = 0 :=
  (by decide +kernel : ∀ t : Fin grid0.N, _)

theorem xblk_apply (c : Dev nD) (t : Fin cfg0.N) (r : Fin 1024) (k : Fin 1792) (R : Fin 4096) (K : Fin 7168)
    (hR : R.val = 1024 * (t.val / 4) + r.val) (hK : K.val = 1792 * (t.val % 4) + k.val) :
    xblk V c t (ix2 r k) = V c main_arg0 (ix2 R K) := by
  obtain ⟨e0, e1, -⟩ := idx0 t
  unfold xblk iblk0
  rw [View.read_apply]
  exact congrArg (V c main_arg0) (Shape.idx_ext₂ (by show win0_0.index t 0 * 1024 + 1 * r.val = R.val; omega) (by show win0_0.index t 1 * 1792 + 1 * k.val = K.val; omega))

theorem wblk_apply (c : Dev nD) (t : Fin cfg0.N) (k : Fin 1792) (d : Fin 1536) (K : Fin 7168)
    (hK : K.val = 1792 * (t.val % 4) + k.val) : wblk V c t (ix2 k d) = V c main_v0 (ix2 K d) := by
  obtain ⟨-, -, e0, e1, -⟩ := idx0 t
  unfold wblk iblk0
  rw [View.read_apply]
  exact congrArg (V c main_v0) (Shape.idx_ext₂ (by show win0_1.index t 0 * 1792 + 1 * k.val = K.val; omega) (by show win0_1.index t 1 * 1536 + 1 * d.val = d.val; omega))

theorem gblk_apply (c : Dev nD) (t : Fin cfg0.N) (d : Fin 1536) : gblk V c t (ix1 d) = V c main_arg6 (ix1 d) := by
  obtain ⟨-, -, -, -, e0, -⟩ := idx0 t
  unfold gblk iblk0
  rw [View.read_apply]
  show V c main_arg6 _ = V c main_arg6 _
  exact congrArg _ (funext fun a => Fin.ext (by
    match a with
    | ⟨0, _⟩ => show win0_2.index t 0 * 1536 + 1 * d.val = d.val; omega))

theorem pay1_apply (j : S1024x1536.Idx) : (k0_pay1 (F := Ideal)) j = 0 := by
  unfold k0_pay1
  simp only [shapeCast_self]
  exact Ideal.ofBits_zero_f32

theorem pay2_apply (x0 : Vec Ideal S1024x1792 .f32) (acc : Vec Ideal S1024x1536 .f32) (x1 : Vec Ideal S1792x1536 .bf16)
    (r : Fin 1024) (d : Fin 1536) :
    k0_pay2 x0 acc x1 (ix2 r d) = acc (ix2 r d) + ∑ k : Fin 1792, x0 (ix2 r k) * x1 (ix2 k d) := by
  unfold k0_pay2
  simp only [shapeCast_self]
  exact congrArg (acc (ix2 r d) + ·) (VLib.mm_apply _ _ _ r d)

theorem pay3_apply (acc : Vec Ideal S1024x1536 .f32) (g : Vec Ideal S1536 .f32) (r : Fin 1024) (d : Fin 1536) :
    k0_pay3 acc g (ix2 r d) = acc (ix2 r d) * Ideal.rsqrt (Ideal.div (∑ e : Fin 1536, acc (ix2 r e) * acc (ix2 r e))
      Cert.Spec.c1536 + Cert.Spec.eps) * g (ix1 d) := by
  unfold k0_pay3
  exact VLib.rmsnorm_apply acc g _ _ _ _ _ _ _ _ _ r d

-- The accumulator after a point: what the point before left (nothing where it is zeroed) plus the point's block product.
theorem acc_step (c : Dev nD) (t : Fin cfg0.N) (r : Fin 1024) (d : Fin 1536) :
    (outsAt0 V c t.val t.isLt).2 (ix2 r d)
      = (if t.val % 4 = 0 then 0 else (outsAt0 V c (t.val - 1) (Nat.lt_of_le_of_lt (Nat.sub_le _ _) t.isLt)).2 (ix2 r d))
        + ∑ k : Fin 1792, xblk V c t (ix2 r k) * wblk V c t (ix2 k d) := by
  by_cases h0 : t.val % 4 = 0
  · rw [if_pos h0, outsAt0_A V c t h0 (by omega)]; dsimp only; rw [sout0_A_eq, pay2_apply, pay1_apply]
  · rw [if_neg h0]
    by_cases h1 : t.val % 4 = 3
    · rw [outsAt0_C V c t h0 h1]; dsimp only; rw [sout0_C_eq, pay2_apply]
    · rw [outsAt0_B V c t h0 h1]; dsimp only; rw [sout0_B_eq, pay2_apply]

-- The four points of a row block add up the four quarters of the contraction.
theorem acc_eq (c : Dev nD) (t : Fin cfg0.N) (h3 : t.val % 4 = 3) (r : Fin 1024) (d : Fin 1536) (R : Fin 4096)
    (hR : R.val = 1024 * (t.val / 4) + r.val) :
    (outsAt0 V c t.val t.isLt).2 (ix2 r d) = Cert.Spec.P1 (V c main_arg0) (V c main_v0) R d := by
  refine (VLib.blocked_sum 4 1792 (t.val / 4) (fun n h => (outsAt0 V c n h).2 (ix2 r d))
    (VLib.ext0 fun k => xArr V c (ix2 R k) * waArr V c (ix2 k d)) (fun a n h hn ha => ?_)
    3 t.val t.isLt (by omega) (by decide)).trans (VLib.sum_ext0 _)
  obtain rfl : a = n % 4 := by omega
  refine (acc_step V c ⟨n, h⟩ r d).trans (congrArg₂ (· + ·) rfl ?_)
  rw [← Fin.sum_univ_eq_sum_range]
  refine Finset.sum_congr rfl fun k _ => ?_
  have hb : 1792 * (n % 4) + k.val < 7168 := by omega
  rw [VLib.ext0, dif_pos hb]
  exact congrArg₂ (· * ·) (xblk_apply V c ⟨n, h⟩ r k R _ (by show R.val = 1024 * (n / 4) + r.val; omega) rfl)
    (wblk_apply V c ⟨n, h⟩ k d _ rfl)

theorem out_eq (c : Dev nD) (t : Fin cfg0.N) (h3 : t.val % 4 = 3) :
    (outsAt0 V c t.val t.isLt).1 = k0_pay3 (outsAt0 V c t.val t.isLt).2 (gblk V c t) := by
  rw [outsAt0_C V c t (by omega) h3]; dsimp only; rw [out0_C_eq, sout0_C_eq]

theorem flushed0_eq (c : Dev nD) (t : Fin cfg0.N) (hf : (cfg0.win 3).flush t = true) :
    (dat0 V c).flushed 3 t = ((cfg0.win 3).blk t).view.read (Elt Ideal)
      (Cert.Spec.cqArr (V c main_arg0) (V c main_v0) (V c main_arg6)) := by
  have h3 : t.val % 4 = 3 := (flush0_3 t).mp hf
  have hN : t.val < 16 := lt_of_lt_of_eq t.isLt N_0
  obtain ⟨-, -, -, -, -, e0, e1⟩ := idx0 t
  show (cfg0.win 3).cut (grid0.coords t) ((dat0 V c).after 3 t) = _
  rw [after0_3, out_eq V c t h3]
  funext y
  obtain ⟨r, d, rfl⟩ : ∃ (r : Fin 1024) (d : Fin 1536), y = ix2 r d := ⟨y 0, y 1, eq_ix2 y⟩
  rw [View.read_apply]
  refine (pay3_apply _ _ r d).trans ?_
  simp only [fun e => acc_eq V c t h3 r e ⟨1024 * (t.val / 4) + r.val, by omega⟩ rfl, gblk_apply]
  refine congrArg₂ (Cert.Spec.cqAt (V c main_arg0) (V c main_v0) (V c main_arg6)) (Fin.ext ?_) (Fin.ext ?_)
  · show 1024 * (t.val / 4) + r.val = win0_3.index t 0 * 1024 + 1 * r.val; omega
  · show d.val = win0_3.index t 1 * 1536 + 1 * d.val; omega

theorem cover0 (i : S4096x1536.Idx) :
    ∃ t : Fin cfg0.N, (cfg0.win 3).flush t = true ∧ i ∈ ((cfg0.win 3).blk t).view.set := by
  have hi0 : (i 0).val < 4096 := idx2_lt0 i
  have hi1 : (i 1).val < 1536 := idx2_lt1 i
  have hN : grid0.N = 16 := N_0
  obtain ⟨t, ht⟩ : ∃ t : Fin cfg0.N, t.val = 4 * ((i 0).val / 1024) + 3 :=
    ⟨⟨4 * ((i 0).val / 1024) + 3, by show _ < grid0.N; omega⟩, rfl⟩
  obtain ⟨-, -, -, -, -, e0, e1⟩ := idx0 t
  refine ⟨t, (flush0_3 t).mpr (by omega), ?_⟩
  show i ∈ ((View.whole main_v3).slice (win0_3.rect t)).set
  rw [View.set_slice_whole, Rect.mem_set_unit]
  intro a
  match a with
  | ⟨0, _⟩ => show win0_3.index t 0 * 1024 ≤ (i 0).val ∧ (i 0).val < win0_3.index t 0 * 1024 + 1024; omega
  | ⟨1, _⟩ => show win0_3.index t 1 * 1536 ≤ (i 1).val ∧ (i 1).val < win0_3.index t 1 * 1536 + 1536; omega

end V0

theorem arr0_eq (V : (c : Dev nD) → (b : Ref sig .tc) → Buf (Elt Ideal) ((c : Thread nD τ).loc b)) (c : Dev nD) :
    (dat0 (F := Ideal) V c).arrAt 3 cfg0.N = Cert.Spec.cqArr (V c main_arg0) (V c main_v0) (V c main_arg6) :=
  (dat0 (F := Ideal) V c).arrAt_eq_of_cover 3 _ (V0.flushed0_eq V c) V0.cover0

end Cert.KernelIdeal.Hand

end
-- ==== Proof.Cat3.lean ====
import Idealize.ShloMosaic.Lib.Pipeline.Value
import Idealize.ShloMosaic.Lib.ValueIdx

namespace Cert

open Idealize.ShloMosaic Idealize.ShloMosaic.ValueIdx

-- Two rank-3 pieces joined along the last axis: the first piece below its extent, the second past it.
theorem cat3_last {α : Type} {n0 n1 a b c : Nat} (X : (⟨3, ![n0, n1, a]⟩ : Shape).Idx → α) (Y : (⟨3, ![n0, n1, b]⟩ : Shape).Idx → α)
    (hc : Shape.Concatenates [⟨3, ![n0, n1, a]⟩, ⟨3, ![n0, n1, b]⟩] ⟨3, ![n0, n1, c]⟩ 2) (r : Fin n0) (h : Fin n1) (q : Fin c) (hab : c = a + b) :
    concatenate ⟨3, ![n0, n1, c]⟩ 2 [⟨_, X⟩, ⟨_, Y⟩] hc (ix3 r h q)
      = if hq : q.val < a then X (ix3 r h ⟨q.val, hq⟩) else Y (ix3 r h ⟨q.val - a, by omega⟩) := by
  by_cases hq : q.val < a
  · rw [dif_pos hq]
    exact concatenate_pair_apply_left (t := ⟨3, ![n0, n1, c]⟩) (s₁ := ⟨3, ![n0, n1, a]⟩) (s₂ := ⟨3, ![n0, n1, b]⟩) 2 _ _ _ (ix3 r h q) rfl (ix3 r h ⟨q.val, hq⟩) fun d => by
      match d with
      | ⟨0, _⟩ => rfl
      | ⟨1, _⟩ => rfl
      | ⟨2, _⟩ => rfl
  · rw [dif_neg hq]
    exact concatenate_pair_apply_right (t := ⟨3, ![n0, n1, c]⟩) (s₁ := ⟨3, ![n0, n1, a]⟩) (s₂ := ⟨3, ![n0, n1, b]⟩) 2 _ _ _ (ix3 r h q) rfl rfl (ix3 r h ⟨q.val - a, by omega⟩) (fun d hd => by
      match d, hd with
      | ⟨0, _⟩, _ => rfl
      | ⟨1, _⟩, _ => rfl
      | ⟨2, _⟩, hd => exact absurd rfl hd) (by show q.val - a + a = q.val; omega)

end Cert
-- ==== Proof.KI.V1.lean ====
import proofs.«125229_j77395310674148_1_alg».proof.Proof.KI.Pieces
import proofs.«125229_j77395310674148_1_alg».proof.Proof.Spec
import proofs.«125229_j77395310674148_1_alg».proof.Proof.Cat3
import Idealize.ShloMosaic.PureOps.Ideal.Laws

noncomputable section

namespace Cert.KernelIdeal.Hand

open Cert.KernelIdeal.Gen
open Idealize.ShloMosaic Idealize.ShloMosaic.TcCoe
open Idealize.ShloMosaic.ValueIdx

theorem slice3_last {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ fun ax => by
    match ax with
    | ⟨0, _⟩ => exact (Nat.zero_add _).symm
    | ⟨1, _⟩ => exact (Nat.zero_add _).symm
    | ⟨2, _⟩ => exact hk

def mm1 (x0 : FVec Ideal S1024x1536 .bf16) (x1 : FVec Ideal S1536x3072 .bf16) : FVec Ideal S1024x3072 .f32 :=
  matmul dot_S1024x1536_S1536x3072_S1024x3072_1_0_0_1_n_n none (shapeCast S1024x1536 x0 shapeCasts_S1024x1536_S1024x1536)
    (shapeCast S1536x3072 x1 shapeCasts_S1536x3072_S1536x3072) (constant S1024x3072 .f32 0x00000000#32)

def rot1 (v7 : FVec Ideal S1024x16x64 .f32) : FVec Ideal S1024x16x64 .f32 :=
  concatenate S1024x16x64 2
    [⟨S1024x16x32, subf (broadcast S1024x16x32 (Scalar.ofBits .f32 0x00000000#32 : Ideal .f32))
        (extractStridedSlice S1024x16x32 ![0, 0, 32] v7 slices_S1024x16x64_o0_0_32_S1024x16x32)⟩,
     ⟨S1024x16x32, extractStridedSlice S1024x16x32 ![0, 0, 0] v7 slices_S1024x16x64_o0_0_0_S1024x16x32⟩]
    concatenates_S1024x16x32_S1024x16x32_S1024x16x64_d2

def roped1 (v7 : FVec Ideal S1024x16x64 .f32) (x2 x3 : FVec Ideal S1024x64 .f32) : FVec Ideal S1024x16x64 .f32 :=
  addf (mulf v7 (broadcastTo S1024x16x64 (shapeCast S1024x1x64 x2 shapeCasts_S1024x64_S1024x1x64) broadcasts_S1024x1x64_S1024x16x64))
    (mulf (rot1 v7) (broadcastTo S1024x16x64 (shapeCast S1024x1x64 x3 shapeCasts_S1024x64_S1024x1x64) broadcasts_S1024x1x64_S1024x16x64))

def split1 (v4 : FVec Ideal S1024x3072 .f32) : FVec Ideal S1024x16x192 .f32 :=
  shapeCast S1024x16x192 v4 shapeCasts_S1024x3072_S1024x16x192

def heads1 (v5 : FVec Ideal S1024x16x192 .f32) (x2 x3 : FVec Ideal S1024x64 .f32) : FVec Ideal S1024x3072 .f32 :=
  shapeCast S1024x3072
    (concatenate S1024x16x192 2
      [⟨S1024x16x128, extractStridedSlice S1024x16x128 ![0, 0, 0] v5 slices_S1024x16x192_o0_0_0_S1024x16x128⟩,
       ⟨S1024x16x64, roped1 (extractStridedSlice S1024x16x64 ![0, 0, 128] v5 slices_S1024x16x192_o0_0_128_S1024x16x64) x2 x3⟩]
      concatenates_S1024x16x128_S1024x16x64_S1024x16x192_d2)
    shapeCasts_S1024x16x192_S1024x3072

theorem k1_pay1_stages (x0 : Vec Ideal S1024x1536 .bf16) (x1 : Vec Ideal S1536x3072 .bf16) (x2 x3 : Vec Ideal S1024x64 .f32) :
    k1_pay1 x0 x1 x2 x3 = heads1 (split1 (mm1 x0 x1)) x2 x3 := rfl

-- The product's operands are read at (row, shared index) and (shared index, column).
theorem mm1_apply (x0 : FVec Ideal S1024x1536 .bf16) (x1 : FVec Ideal S1536x3072 .bf16) (r : Fin 1024) (j : Fin 3072) :
    mm1 x0 x1 (ix2 r j) = ∑ d : Fin 1536, x0 (ix2 r d) * x1 (ix2 d j) := by
  unfold mm1
  simp only [matmul]
  rw [shapeCast_self, shapeCast_self, Ideal.matmul_constant_zero_apply, ← Equiv.sum_comp (contrEquiv1 dot_S1024x1536_S1536x3072_S1024x3072_1_0_0_1_n_n 1536 rfl rfl).symm]
  refine Finset.sum_congr rfl fun k _ => ?_
  have hk := contrEquiv1_symm_val dot_S1024x1536_S1536x3072_S1024x3072_1_0_0_1_n_n 1536 rfl rfl k
  rw [show dot_S1024x1536_S1536x3072_S1024x3072_1_0_0_1_n_n.lhsIdx (ix2 r j) _ = ix2 r k from Shape.idx_ext₂ rfl ((dot_S1024x1536_S1536x3072_S1024x3072_1_0_0_1_n_n.lhsIdx_val_of_single rfl _ _).trans hk),
    show dot_S1024x1536_S1536x3072_S1024x3072_1_0_0_1_n_n.rhsIdx (ix2 r j) _ = ix2 k j from Shape.idx_ext₂ ((dot_S1024x1536_S1536x3072_S1024x3072_1_0_0_1_n_n.rhsIdx_val_of_single rfl _ _).trans hk) rfl]

theorem split1_apply (v4 : FVec Ideal S1024x3072 .f32) (r : Fin 1024) (h : Fin 16) (p : Fin 192) :
    split1 v4 (ix3 r h p) = v4 (ix2 r ⟨192 * h.val + p.val, by omega⟩) := by
  refine shapeCast_apply v4 _ (ix3 r h p) (ix2 r ⟨192 * h.val + p.val, by omega⟩) ?_
  rw [Shape.rowMajor_val_two, Shape.rowMajor_val_three]
  show r.val * 3072 + (192 * h.val + p.val) = (r.val * 16 + h.val) * 192 + p.val
  omega

theorem flat1_apply (v22 : FVec Ideal S1024x16x192 .f32) (r : Fin 1024) (j : Fin 3072) :
    shapeCast S1024x3072 v22 shapeCasts_S1024x16x192_S1024x3072 (ix2 r j)
      = v22 (ix3 r ⟨j.val / 192, by omega⟩ ⟨j.val % 192, by omega⟩) := by
  refine shapeCast_apply v22 _ (ix2 r j) (ix3 r ⟨j.val / 192, by omega⟩ ⟨j.val % 192, by omega⟩) ?_
  rw [Shape.rowMajor_val_two, Shape.rowMajor_val_three]
  show (r.val * 16 + j.val / 192) * 192 + j.val % 192 = r.val * 3072 + j.val
  omega

theorem table1_apply (x : FVec Ideal S1024x64 .f32) (r : Fin 1024) (h : Fin 16) (q : Fin 64) :
    broadcastTo S1024x16x64 (shapeCast S1024x1x64 x shapeCasts_S1024x64_S1024x1x64) broadcasts_S1024x1x64_S1024x16x64 (ix3 r h q)
      = x (ix2 r q) := by
  refine (broadcastTo_apply _ _ (ix3 r h q) (ix3 r ⟨0, by omega⟩ q) fun a => ?_).trans ?_
  · match a with
    | ⟨0, _⟩ => rfl
    | ⟨1, _⟩ => rfl
    | ⟨2, _⟩ => rfl
  · refine shapeCast_apply x _ (ix3 r ⟨0, by omega⟩ q) (ix2 r q) ?_
    rw [Shape.rowMajor_val_two, Shape.rowMajor_val_three]
    show r.val * 64 + q.val = (r.val * 1 + 0) * 64 + q.val
    omega

theorem rot1_apply (v7 : FVec Ideal S1024x16x64 .f32) (r : Fin 1024) (h : Fin 16) (q : Fin 64) :
    rot1 v7 (ix3 r h q) = if hq : q.val < 32 then -(v7 (ix3 r h ⟨q.val + 32, by omega⟩)) else v7 (ix3 r h ⟨q.val - 32, by omega⟩) := by
  refine (cat3_last _ _ _ r h q rfl).trans (dite_congr rfl (fun hq => ?_) fun hq => slice3_last 0 v7 _ r h _ _ (by exact (Nat.zero_add _).symm))
  rw [subf_apply, broadcast_apply, slice3_last 32 v7 _ r h ⟨q.val, hq⟩ ⟨q.val + 32, by omega⟩ (Nat.add_comm _ _)]
  show Ideal.ofBits .f32 0x00000000#32 - _ = _
  rw [Ideal.ofBits_zero_f32, zero_sub]

theorem roped1_apply (v7 : FVec Ideal S1024x16x64 .f32) (x2 x3 : FVec Ideal S1024x64 .f32) (r : Fin 1024) (h : Fin 16) (q : Fin 64) :
    roped1 v7 x2 x3 (ix3 r h q)
      = Cert.Spec.ropeAt (fun q' => v7 (ix3 r h q')) (fun q' => x2 (ix2 r q')) (fun q' => x3 (ix2 r q')) q := by
  unfold roped1 Cert.Spec.ropeAt
  rw [addf_apply, mulf_apply, mulf_apply, table1_apply, table1_apply, rot1_apply]

theorem ropeAt_congr {v v' cs cs' sn sn' : Fin 64 → EReal} {q q' : Fin 64} (hv : v = v') (hc : cs = cs') (hs : sn = sn') (hq : q = q') :
    Cert.Spec.ropeAt v cs sn q = Cert.Spec.ropeAt v' cs' sn' q' := by
  subst hv hc hs hq; rfl

theorem heads1_apply (v5 : FVec Ideal S1024x16x192 .f32) (x2 x3 : FVec Ideal S1024x64 .f32) (r : Fin 1024) (j : Fin 3072) :
    heads1 v5 x2 x3 (ix2 r j) =
      if hp : j.val % 192 < 128 then v5 (ix3 r ⟨j.val / 192, by omega⟩ ⟨j.val % 192, by omega⟩)
      else Cert.Spec.ropeAt (fun q => v5 (ix3 r ⟨j.val / 192, by omega⟩ ⟨128 + q.val, by omega⟩)) (fun q => x2 (ix2 r q)) (fun q => x3 (ix2 r q))
        ⟨j.val % 192 - 128, by omega⟩ :=
  ((flat1_apply _ r j).trans (cat3_last _ _ _ _ _ _ (by rfl))).trans (dite_congr rfl (fun hp => slice3_last 0 v5 _ _ _ _ _ (by exact (Nat.zero_add _).symm)) fun hp =>
    (roped1_apply _ x2 x3 _ _ _).trans (ropeAt_congr (funext fun q => slice3_last 128 v5 _ _ _ q _ (by rfl)) rfl rfl rfl))

variable (V : (c : Dev nD) → (b : Ref sig .tc) → Buf (Elt Ideal) ((c : Thread nD τ).loc b))

theorem idx_facts1 : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = t.val % 8 :=
  (by decide +kernel : ∀ t : Fin grid1.N, _)

theorem iblk1_apply (c : Dev nD) (t : Fin cfg1.N) (hN : t.val < 32) :
    (∀ (r : Fin 1024) (d : Fin 1536), (iblk1 V c 0 t : FVec Ideal S1024x1536 .bf16) (ix2 r d) = V c main_v3 (ix2 (⟨1024 * (t.val / 8) + r.val, by omega⟩ : Fin 4096) d))
    ∧ (∀ (d : Fin 1536) (j : Fin 3072), (iblk1 V c 1 t : FVec Ideal S1536x3072 .bf16) (ix2 d j) = V c main_v1 (ix2 d (⟨3072 * (t.val % 8) + j.val, by omega⟩ : Fin 24576)))
    ∧ (∀ (r : Fin 1024) (q : Fin 64), (iblk1 V c 2 t : FVec Ideal S1024x64 .f32) (ix2 r q) = V c main_arg4 (ix2 (⟨1024 * (t.val / 8) + r.val, by omega⟩ : Fin 4096) q))
    ∧ (∀ (r : Fin 1024) (q : Fin 64), (iblk1 V c 3 t : FVec Ideal S1024x64 .f32) (ix2 r q) = V c main_arg5 (ix2 (⟨1024 * (t.val / 8) + r.val, by omega⟩ : Fin 4096) q)) := by
  obtain ⟨a0, a1, b0, b1, c0, c1, d0, d1, -⟩ := idx_facts1 t
  refine ⟨fun r d => congrArg (V c main_v3) (Shape.idx_ext₂ ?_ ?_), fun d j => congrArg (V c main_v1) (Shape.idx_ext₂ ?_ ?_),
    fun r q => congrArg (V c main_arg4) (Shape.idx_ext₂ ?_ ?_), fun r q => congrArg (V c main_arg5) (Shape.idx_ext₂ ?_ ?_)⟩
  · show win1_0.index t 0 * 1024 + 1 * r.val = 1024 * (t.val / 8) + r.val; rw [a0]; omega
  · show win1_0.index t 1 * 1536 + 1 * d.val = d.val; rw [a1]; omega
  · show win1_1.index t 0 * 1536 + 1 * d.val = d.val; rw [b0]; omega
  · show win1_1.index t 1 * 3072 + 1 * j.val = 3072 * (t.val % 8) + j.val; rw [b1]; omega
  · show win1_2.index t 0 * 1024 + 1 * r.val = 1024 * (t.val / 8) + r.val; rw [c0]; omega
  · show win1_2.index t 1 * 64 + 1 * q.val = q.val; rw [c1]; omega
  · show win1_3.index t 0 * 1024 + 1 * r.val = 1024 * (t.val / 8) + r.val; rw [d0]; omega
  · show win1_3.index t 1 * 64 + 1 * q.val = q.val; rw [d1]; omega

-- 3072 columns are 16 whole heads, so a block column keeps positions in heads and shifts heads by a multiple of 16.
theorem pay_query (c : Dev nD) (t : Fin cfg1.N) (hN : t.val < 32) (r : Fin 1024) (j : Fin 3072) :
    k1_pay1 (iblk1 V c 0 t) (iblk1 V c 1 t) (iblk1 V c 2 t) (iblk1 V c 3 t) (ix2 r j)
      = Cert.Spec.queryAt (V c main_v3) (V c main_v1) (V c main_arg4) (V c main_arg5) ⟨1024 * (t.val / 8) + r.val, by omega⟩ ⟨3072 * (t.val % 8) + j.val, by omega⟩ := by
  obtain ⟨h0, h1, h2, h3⟩ := iblk1_apply V c t hN
  have hd : ∀ (h : Fin 16) (p : Fin 192) (J : Fin 24576), 3072 * (t.val % 8) + (192 * h.val + p.val) = J.val →
      split1 (mm1 (iblk1 V c 0 t) (iblk1 V c 1 t)) (ix3 r h p) = Cert.Spec.Q (V c main_v3) (V c main_v1) ⟨1024 * (t.val / 8) + r.val, by omega⟩ J := fun h p J e => by
    rw [split1_apply, mm1_apply]
    exact (Finset.sum_congr rfl fun d _ => by rw [h0, h1]).trans (congrArg (Cert.Spec.Q _ _ _) (Fin.ext e))
  rw [k1_pay1_stages, heads1_apply]
  unfold Cert.Spec.queryAt
  by_cases hp : j.val % 192 < 128
  · rw [dif_pos hp, dif_pos (show (3072 * (t.val % 8) + j.val) % 192 < 128 by omega)]
    exact hd _ _ _ (by show 3072 * (t.val % 8) + (192 * (j.val / 192) + j.val % 192) = 3072 * (t.val % 8) + j.val; omega)
  · rw [dif_neg hp, dif_neg (show ¬(3072 * (t.val % 8) + j.val) % 192 < 128 by omega)]
    refine ropeAt_congr (funext fun q => hd _ _ _ ?_) (funext (h2 r)) (funext (h3 r)) (Fin.ext ?_)
    · show 3072 * (t.val % 8) + (192 * (j.val / 192) + (128 + q.val)) = 192 * ((3072 * (t.val % 8) + j.val) / 192) + 128 + q.val
      omega
    · show j.val % 192 - 128 = (3072 * (t.val % 8) + j.val) % 192 - 128
      omega

theorem flushed1_eq (c : Dev nD) (t : Fin cfg1.N) :
    (dat1 V c).flushed 4 t
      = ((cfg1.win 4).blk t).view.read (Elt Ideal) (Cert.Spec.queryArr (V c main_v3) (V c main_v1) (V c main_arg4) (V c main_arg5)) := by
  have hN : t.val < 32 := Nat.lt_of_lt_of_eq t.isLt N_1
  obtain ⟨-, -, -, -, -, -, -, -, e40, e41⟩ := idx_facts1 t
  show (cfg1.win 4).cut (grid1.coords t) ((dat1 V c).after 4 t) = _
  rw [after1_4, out1_eq]
  funext y
  refine ((congrArg _ (eq_ix2 (win1_4.xinj (grid1.coords t) y))).trans
    (pay_query V c t hN _ _)).trans ?_
  show Cert.Spec.queryAt _ _ _ _ _ _ = Cert.Spec.queryAt _ _ _ _ _ _
  congr 1 <;> apply Fin.ext
  · show 1024 * (t.val / 8) + (y 0).val = win1_4.index t 0 * 1024 + 1 * (y 0).val
    rw [e40]; omega
  · show 3072 * (t.val % 8) + (y 1).val = win1_4.index t 1 * 3072 + 1 * (y 1).val
    rw [e41]; omega

-- Every entry (T, J) is written back by the point of block row T / 1024 and block column J / 3072.
theorem blocks_cover1 (i : S4096x24576.Idx) : ∃ t : Fin cfg1.N, (cfg1.win 4).flush t = true ∧ i ∈ ((cfg1.win 4).blk t).view.set := by
  have h0 : (i 0).val < 4096 := (i 0).isLt
  have h1 : (i 1).val < 24576 := (i 1).isLt
  obtain ⟨t, ht⟩ : ∃ t : Fin cfg1.N, t.val = 8 * ((i 0).val / 1024) + (i 1).val / 3072 :=
    ⟨⟨8 * ((i 0).val / 1024) + (i 1).val / 3072, by rw [show cfg1.N = 32 from N_1]; omega⟩, rfl⟩
  obtain ⟨-, -, -, -, -, -, -, -, e40, e41⟩ := idx_facts1 t
  refine ⟨t, flush1_4 t, ?_⟩
  show i ∈ ((View.whole main_v4).slice (win1_4.rect t)).set
  rw [View.set_slice_whole, Rect.mem_set_unit]
  intro a
  match a with
  | ⟨0, _⟩ =>
    show win1_4.index t 0 * 1024 ≤ (i 0).val ∧ (i 0).val < win1_4.index t 0 * 1024 + 1024
    rw [e40]; omega
  | ⟨1, _⟩ =>
    show win1_4.index t 1 * 3072 ≤ (i 1).val ∧ (i 1).val < win1_4.index t 1 * 3072 + 3072
    rw [e41]; omega

theorem arr1_eq (c : Dev nD) :
    (dat1 (F := Ideal) V c).arrAt 4 cfg1.N = Cert.Spec.queryArr (V c main_v3) (V c main_v1) (V c main_arg4) (V c main_arg5) :=
  (dat1 (F := Ideal) V c).arrAt_eq_of_cover 4 _ (fun t _ => flushed1_eq V c t) blocks_cover1

end Cert.KernelIdeal.Hand

end
-- ==== Proof.KI.V2.lean ====
import proofs.«125229_j77395310674148_1_alg».proof.Proof.KI.Pieces
import proofs.«125229_j77395310674148_1_alg».proof.Proof.Spec
import proofs.«125229_j77395310674148_1_alg».proof.Proof.KI.VLib

noncomputable section

namespace Cert.KernelIdeal.Hand

open Cert.KernelIdeal.Gen Idealize.ShloMosaic Idealize.ShloMosaic.TcCoe Idealize.ShloMosaic.ValueIdx

namespace V2

theorem pay1_apply (j : S1024x576.Idx) : k2_pay1 (F := Ideal) j = 0 := by
  unfold k2_pay1
  simp only [shapeCast_self]
  exact Ideal.ofBits_zero_f32

theorem pay2_apply (x : Vec Ideal S1024x1792 .f32) (acc : Vec Ideal S1024x576 .f32) (w : Vec Ideal S1792x576 .bf16)
    (p : Fin 1024) (e : Fin 576) :
    k2_pay2 (F := Ideal) x acc w (ix2 p e) = acc (ix2 p e) + ∑ k : Fin 1792, x (ix2 p k) * w (ix2 k e) := by
  unfold k2_pay2
  simp only [shapeCast_self]
  exact congrArg (acc (ix2 p e) + ·) (VLib.mm_apply _ _ _ p e)

section Layout
variable {α : Type}

-- Two blocks side by side along the columns, N₁ then N₂ wide: a column below N₁ reads the first,
theorem cat_lo {N₁ N₂ N : ℕ} (a : (⟨2, ![1024, N₁]⟩ : Shape).Idx → α) (b : (⟨2, ![1024, N₂]⟩ : Shape).Idx → α)
    (h : Shape.Concatenates [⟨2, ![1024, N₁]⟩, ⟨2, ![1024, N₂]⟩] ⟨2, ![1024, N]⟩ 1) (r : Fin 1024) (q : Fin N) (hq : q.val < N₁) :
    concatenate ⟨2, ![1024, N]⟩ 1 [⟨_, a⟩, ⟨_, b⟩] h (ix2 r q) = a (ix2 r ⟨q.val, hq⟩) :=
  concatenate_pair_apply_left (1 : Fin 2) a b h (ix2 r q) rfl (ix2 r ⟨q.val, hq⟩) (fun c => match c with
    | ⟨0, _⟩ => rfl
    | ⟨1, _⟩ => rfl)

-- a column from N₁ on the second.
theorem cat_hi {N₁ N₂ N : ℕ} (a : (⟨2, ![1024, N₁]⟩ : Shape).Idx → α) (b : (⟨2, ![1024, N₂]⟩ : Shape).Idx → α)
    (h : Shape.Concatenates [⟨2, ![1024, N₁]⟩, ⟨2, ![1024, N₂]⟩] ⟨2, ![1024, N]⟩ 1) (r : Fin 1024) (q : Fin N) (hq : ¬q.val < N₁)
    (hq' : q.val - N₁ < N₂) :
    concatenate ⟨2, ![1024, N]⟩ 1 [⟨_, a⟩, ⟨_, b⟩] h (ix2 r q) = b (ix2 r ⟨q.val - N₁, hq'⟩) :=
  concatenate_pair_apply_right (1 : Fin 2) a b h (ix2 r q) rfl rfl (ix2 r ⟨q.val - N₁, hq'⟩) (fun c => match c with
    | ⟨0, _⟩ => fun _ => rfl
    | ⟨1, _⟩ => fun hne => absurd rfl hne)
    (by show q.val - N₁ + N₁ = q.val; omega)

end Layout

-- A column below 512 is normalised over the first 512 columns; a later one is the half rotation of the last 64.
theorem pay3_apply (s : Vec Ideal S1024x576 .f32) (g : Vec Ideal S512 .f32) (cs sn : Vec Ideal S1024x64 .f32) (r : Fin 1024) (e : Fin 576) :
    k2_pay3 (F := Ideal) s g cs sn (ix2 r e) =
      if he : e.val < 512 then
        (s (ix2 r e) * Ideal.rsqrt (Ideal.div (∑ f : Fin 512, s (ix2 r ⟨f.val, by omega⟩) * s (ix2 r ⟨f.val, by omega⟩)) Cert.Spec.c512 + Cert.Spec.eps)) * g (ix1 ⟨e.val, he⟩)
      else Cert.Spec.ropeAt (fun q => s (ix2 r ⟨512 + q.val, by omega⟩)) (fun q => cs (ix2 r q)) (fun q => sn (ix2 r q)) ⟨e.val - 512, by omega⟩ := by
  unfold k2_pay3
  dsimp only
  by_cases he : e.val < 512
  · rw [dif_pos he]
    refine (cat_lo _ _ _ r e he).trans ((VLib.rmsnorm_apply _ g _ _ _ _ _ _ _ _ _ r ⟨e.val, he⟩).trans ?_)
    simp only [slice2_axis1_eq, Nat.zero_add]
    rfl
  · rw [dif_neg he]
    refine (cat_hi _ _ _ r e he (by omega)).trans ?_
    unfold Cert.Spec.ropeAt
    simp only [mulf_apply, addf_apply]
    by_cases hq : e.val - 512 < 32
    · rw [dif_pos hq]
      simp only [cat_lo (N₁ := 32) (N₂ := 32) (N := 64) _ _ _ r ⟨e.val - 512, by omega⟩ hq, subf_apply, broadcast_apply, slice2_axis1_eq]
      have hz : (FloatOps.ofBits (F := Ideal) FTy.f32 0x00000000#32 : EReal) = 0 := Ideal.ofBits_zero_f32
      have hi : (⟨512 + (32 + (e.val - 512)), by omega⟩ : Fin 576) = ⟨512 + (e.val - 512 + 32), by omega⟩ := Fin.ext (by show 512 + (32 + (e.val - 512)) = 512 + (e.val - 512 + 32); omega)
      rw [hz, zero_sub, hi]
    · rw [dif_neg hq]
      simp only [cat_hi (N₁ := 32) (N₂ := 32) (N := 64) _ _ _ r ⟨e.val - 512, by omega⟩ hq (by show e.val - 512 - 32 < 32; omega), slice2_axis1_eq, Nat.zero_add]

variable (V : (c : Dev nD) → (b : Ref sig .tc) → Buf (Elt Ideal) ((c : Thread nD τ).loc b))

abbrev xArr (c : Dev nD) : FVec Ideal Cert.Spec.Sx .f32 := V c main_arg0
abbrev wArr (c : Dev nD) : FVec Ideal Cert.Spec.Swkv .f32 := V c main_v2
abbrev xblk (c : Dev nD) (t : Fin cfg2.N) : Vec Ideal S1024x1792 .f32 := iblk2 V c 0 t
abbrev wblk (c : Dev nD) (t : Fin cfg2.N) : Vec Ideal S1792x576 .bf16 := iblk2 V c 1 t
abbrev csblk (c : Dev nD) (t : Fin cfg2.N) : Vec Ideal S1024x64 .f32 := iblk2 V c 2 t
abbrev snblk (c : Dev nD) (t : Fin cfg2.N) : Vec Ideal S1024x64 .f32 := iblk2 V c 3 t
abbrev gblk (c : Dev nD) (t : Fin cfg2.N) : Vec Ideal S512 .f32 := iblk2 V c 4 t

theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0
    ∧ win2_4.index t (0 : Fin 1) = 0
    ∧ win2_5.index t (0 : Fin 2) = t.val / 4 ∧ win2_5.index t (1 : Fin 2) = 0 :=
  (by decide +kernel : ∀ t : Fin grid2.N, _)

theorem xblk_apply (c : Dev nD) (t : Fin cfg2.N) (r : Fin 1024) (k : Fin 1792) (R : Fin 4096) (K : Fin 7168)
    (hR : R.val = 1024 * (t.val / 4) + r.val) (hK : K.val = 1792 * (t.val % 4) + k.val) :
    xblk V c t (ix2 r k) = V c main_arg0 (ix2 R K) := by
  obtain ⟨e0, e1, -⟩ := idx2 t
  unfold xblk iblk2
  rw [View.read_apply]
  exact congrArg (V c main_arg0) (Shape.idx_ext₂ (by show win2_0.index t (0 : Fin 2) * 1024 + 1 * r.val = R.val; omega) (by show win2_0.index t (1 : Fin 2) * 1792 + 1 * k.val = K.val; omega))

theorem wblk_apply (c : Dev nD) (t : Fin cfg2.N) (k : Fin 1792) (e : Fin 576) (K : Fin 7168)
    (hK : K.val = 1792 * (t.val % 4) + k.val) : wblk V c t (ix2 k e) = V c main_v2 (ix2 K e) := by
  obtain ⟨-, -, e0, e1, -⟩ := idx2 t
  unfold wblk iblk2
  rw [View.read_apply]
  exact congrArg (V c main_v2) (Shape.idx_ext₂ (by show win2_1.index t (0 : Fin 2) * 1792 + 1 * k.val = K.val; omega) (by show win2_1.index t (1 : Fin 2) * 576 + 1 * e.val = e.val; omega))

theorem csblk_apply (c : Dev nD) (t : Fin cfg2.N) (r : Fin 1024) (q : Fin 64) (R : Fin 4096)
    (hR : R.val = 1024 * (t.val / 4) + r.val) : csblk V c t (ix2 r q) = V c main_arg4 (ix2 R q) := by
  obtain ⟨-, -, -, -, e0, e1, -⟩ := idx2 t
  unfold csblk iblk2
  rw [View.read_apply]
  exact congrArg (V c main_arg4) (Shape.idx_ext₂ (by show win2_2.index t (0 : Fin 2) * 1024 + 1 * r.val = R.val; omega) (by show win2_2.index t (1 : Fin 2) * 64 + 1 * q.val = q.val; omega))

theorem snblk_apply (c : Dev nD) (t : Fin cfg2.N) (r : Fin 1024) (q : Fin 64) (R : Fin 4096)
    (hR : R.val = 1024 * (t.val / 4) + r.val) : snblk V c t (ix2 r q) = V c main_arg5 (ix2 R q) := by
  obtain ⟨-, -, -, -, -, -, e0, e1, -⟩ := idx2 t
  unfold snblk iblk2
  rw [View.read_apply]
  exact congrArg (V c main_arg5) (Shape.idx_ext₂ (by show win2_3.index t (0 : Fin 2) * 1024 + 1 * r.val = R.val; omega) (by show win2_3.index t (1 : Fin 2) * 64 + 1 * q.val = q.val; omega))

theorem gblk_apply (c : Dev nD) (t : Fin cfg2.N) (f : Fin 512) : gblk V c t (ix1 f) = V c main_arg7 (ix1 f) := by
  obtain ⟨-, -, -, -, -, -, -, -, e0, -⟩ := idx2 t
  unfold gblk iblk2
  rw [View.read_apply]
  show V c main_arg7 _ = V c main_arg7 _
  exact congrArg _ (funext fun a => Fin.ext (by
    match a with
    | ⟨0, _⟩ => show win2_4.index t (0 : Fin 1) * 512 + 1 * f.val = f.val; omega))

-- The accumulator after a point: what the point before left (nothing where it is zeroed) plus the point's block product.
theorem acc_step (c : Dev nD) (t : Fin cfg2.N) (r : Fin 1024) (e : Fin 576) :
    (outsAt2 V c t.val t.isLt).2 (ix2 r e)
      = (if t.val % 4 = 0 then 0 else (outsAt2 V c (t.val - 1) (Nat.lt_of_le_of_lt (Nat.sub_le _ _) t.isLt)).2 (ix2 r e))
        + ∑ k : Fin 1792, xblk V c t (ix2 r k) * wblk V c t (ix2 k e) := by
  by_cases h0 : t.val % 4 = 0
  · rw [if_pos h0, outsAt2_A V c t h0 (by omega)]; dsimp only; rw [sout2_A_eq, pay2_apply, pay1_apply]
  · rw [if_neg h0]
    by_cases h1 : t.val % 4 = 3
    · rw [outsAt2_C V c t h0 h1]; dsimp only; rw [sout2_C_eq, pay2_apply]
    · rw [outsAt2_B V c t h0 h1]; dsimp only; rw [sout2_B_eq, pay2_apply]

-- The four points of a row block add up the four quarters of the contraction.
theorem acc_eq (c : Dev nD) (t : Fin cfg2.N) (h3 : t.val % 4 = 3) (r : Fin 1024) (e : Fin 576) (R : Fin 4096)
    (hR : R.val = 1024 * (t.val / 4) + r.val) :
    (outsAt2 V c t.val t.isLt).2 (ix2 r e) = Cert.Spec.P3 (V c main_arg0) (V c main_v2) R e := by
  refine (VLib.blocked_sum 4 1792 (t.val / 4) (fun n h => (outsAt2 V c n h).2 (ix2 r e))
    (VLib.ext0 fun k => xArr V c (ix2 R k) * wArr V c (ix2 k e))
    (fun a n h hn ha => ?_) 3 t.val t.isLt (by omega) (by decide)).trans (VLib.sum_ext0 _)
  obtain rfl : a = n % 4 := by omega
  refine (acc_step V c ⟨n, h⟩ r e).trans (congrArg₂ (· + ·) rfl ?_)
  rw [← Fin.sum_univ_eq_sum_range]
  refine Finset.sum_congr rfl fun k _ => ?_
  have hb : 1792 * (n % 4) + k.val < 7168 := by omega
  rw [VLib.ext0, dif_pos hb]
  exact congrArg₂ (· * ·) (xblk_apply V c ⟨n, h⟩ r k R _ (by show R.val = 1024 * (n / 4) + r.val; omega) rfl)
    (wblk_apply V c ⟨n, h⟩ k e _ rfl)

theorem out_eq (c : Dev nD) (t : Fin cfg2.N) (h3 : t.val % 4 = 3) :
    (outsAt2 V c t.val t.isLt).1
      = k2_pay3 (outsAt2 V c t.val t.isLt).2 (gblk V c t) (csblk V c t) (snblk V c t) := by
  rw [outsAt2_C V c t (by omega) h3]; dsimp only; rw [out2_C_eq, sout2_C_eq]

theorem out_at (c : Dev nD) (t : Fin cfg2.N) (h3 : t.val % 4 = 3) (r : Fin 1024) (e : Fin 576) (R : Fin 4096)
    (hR : R.val = 1024 * (t.val / 4) + r.val) :
    (outsAt2 V c t.val t.isLt).1 (ix2 r e)
      = Cert.Spec.kvAt (V c main_arg0) (V c main_v2) (V c main_arg4) (V c main_arg5) (V c main_arg7) R e := by
  rw [out_eq V c t h3, pay3_apply]
  simp only [fun e' => acc_eq V c t h3 r e' R hR, gblk_apply, fun q => csblk_apply V c t r q R hR,
    fun q => snblk_apply V c t r q R hR]
  rfl

theorem flushed_eq (c : Dev nD) (t : Fin cfg2.N) (hf : (cfg2.win 5).flush t = true) :
    (dat2 V c).flushed 5 t = ((cfg2.win 5).blk t).view.read (Elt Ideal)
      (Cert.Spec.kvArr (V c main_arg0) (V c main_v2) (V c main_arg4) (V c main_arg5) (V c main_arg7)) := by
  have h3 : t.val % 4 = 3 := (flush2_5 t).mp hf
  have hN : t.val < 16 := lt_of_lt_of_eq t.isLt N_2
  obtain ⟨-, -, -, -, -, -, -, -, -, e0, e1⟩ := idx2 t
  show (cfg2.win 5).cut (grid2.coords t) ((dat2 V c).after 5 t) = _
  rw [after2_5]
  funext j
  rw [View.read_apply]
  have hj0 : (j 0).val < 1024 := (j 0).isLt
  refine Eq.trans ?_ ((out_at V c t h3 (j 0) (j 1) ⟨1024 * (t.val / 4) + (j 0).val, by omega⟩ rfl).trans ?_)
  · exact congrArg (outsAt2 V c t.val t.isLt).1 (eq_ix2 j)
  · unfold Cert.Spec.kvArr
    refine congrArg₂ (Cert.Spec.kvAt (V c main_arg0) (V c main_v2) (V c main_arg4) (V c main_arg5) (V c main_arg7)) (Fin.ext ?_) (Fin.ext ?_)
    · show 1024 * (t.val / 4) + (j 0).val = win2_5.index t (0 : Fin 2) * 1024 + 1 * (j 0).val; omega
    · show (j 1).val = win2_5.index t (1 : Fin 2) * 576 + 1 * (j 1).val; omega

theorem cover (i : S4096x576.Idx) : ∃ t : Fin cfg2.N, (cfg2.win 5).flush t = true ∧ i ∈ ((cfg2.win 5).blk t).view.set := by
  have hi0 : (i 0).val < 4096 := (i 0).isLt
  have hi1 : (i 1).val < 576 := (i 1).isLt
  have hN : cfg2.N = 16 := N_2
  obtain ⟨t, ht⟩ : ∃ t : Fin cfg2.N, t.val = 4 * ((i 0).val / 1024) + 3 :=
    ⟨⟨4 * ((i 0).val / 1024) + 3, by rw [hN]; omega⟩, rfl⟩
  obtain ⟨-, -, -, -, -, -, -, -, -, e0, e1⟩ := idx2 t
  refine ⟨t, (flush2_5 t).mpr (by omega), ?_⟩
  show i ∈ ((View.whole main_v5).slice (win2_5.rect t)).set
  rw [View.set_slice_whole, Rect.mem_set_unit]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 576 ≤ (i 1).val ∧ (i 1).val < win2_5.index t (1 : Fin 2) * 576 + 576; omega

end V2

theorem arr2_eq (V : (c : Dev nD) → (b : Ref sig .tc) → Buf (Elt Ideal) ((c : Thread nD τ).loc b)) (c : Dev nD) :
    (dat2 (F := Ideal) V c).arrAt 5 cfg2.N = Cert.Spec.kvArr (V c main_arg0) (V c main_v2) (V c main_arg4) (V c main_arg5) (V c main_arg7) :=
  (dat2 (F := Ideal) V c).arrAt_eq_of_cover 5 _ (V2.flushed_eq V c) V2.cover

end Cert.KernelIdeal.Hand

end
-- ==== Proof.RefRead.lean ====
import proofs.«125229_j77395310674148_1_alg».proof.Proof.Gen.ReferenceIdeal.Read
-- ==== Proof.RefSpec.lean ====
import proofs.«125229_j77395310674148_1_alg».proof.Proof.RefRead
import proofs.«125229_j77395310674148_1_alg».proof.Proof.Spec
import proofs.«125229_j77395310674148_1_alg».proof.Proof.Cat3

noncomputable section

namespace Cert.ReferenceIdeal.RefValue

open Cert.ReferenceIdeal.Read Idealize.ShloMosaic Idealize.ShloMosaic.ValueIdx
open Cert.Spec (P1 cqArr Q queryAt queryArr P3 kvAt outAt ropeAt c1536 c512 eps)

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

variable {x0 : (⟨S4096x7168, .f32⟩ : BufTy).Contents (Elt Ideal)} {x1 : (⟨S7168x1536, .f32⟩ : BufTy).Contents (Elt Ideal)}
  {x2 : (⟨S1536x24576, .f32⟩ : BufTy).Contents (Elt Ideal)} {x3 : (⟨S7168x576, .f32⟩ : BufTy).Contents (Elt Ideal)}
  {x4 x5 : (⟨S4096x64, .f32⟩ : BufTy).Contents (Elt Ideal)}
  {x6 : (⟨S1536, .f32⟩ : BufTy).Contents (Elt Ideal)} {x7 : (⟨S512, .f32⟩ : BufTy).Contents (Elt Ideal)}

theorem v0_at (t : Fin 4096) (d : Fin 1536) : val_main_v0 x0 x1 (ix2 t d) = P1 x0 x1 t d := by
  rw [val_main_v0_apply]
  refine Finset.sum_congr rfl fun k _ => ?_
  rw [show lidx_main_v0 (ix2 t d) k = ix2 t k from by idx2, show ridx_main_v0 (ix2 t d) k = ix2 k d from by idx2]

theorem v2_at (t : Fin 4096) : val_main_v2 x0 x1 (ix1 t) = ∑ e : Fin 1536, P1 x0 x1 t e * P1 x0 x1 t e := by
  rw [val_main_v2_apply, val_main_cst_apply, Ideal.ofBits_def, Ideal.ofBits_zero_f32, zero_add]
  refine Finset.sum_congr rfl fun e _ => ?_
  rw [show idx_main_v2 (ix1 t) e = ix2 t e from by idx2, val_main_v1_apply, v0_at, Ideal.mulf_def]

theorem v8_at (t : Fin 4096) (z : Fin 1) : val_main_v8 x0 x1 (ix2 t z) =
    Ideal.rsqrt (Ideal.div (∑ e : Fin 1536, P1 x0 x1 t e * P1 x0 x1 t e) c1536 + eps) := by
  rw [val_main_v8_apply, val_main_v7_apply, val_main_v6_apply, val_main_cst_1_apply, val_main_v5_apply, val_main_v4_apply,
    val_main_cst_0_apply, val_main_v3_apply, show idx_main_v3 (ix2 t z) = ix1 t from by idx1, v2_at]
  rfl

theorem v13_eq : val_main_v13 x0 x1 x6 = cqArr x0 x1 x6 := by
  funext j
  obtain ⟨t, d, rfl⟩ : ∃ t d, j = ix2 t d := ⟨j 0, j 1, eq_ix2 j⟩
  rw [val_main_v13_apply, val_main_v10_apply, val_main_v9_apply, val_main_v12_apply, val_main_v11_apply, v0_at,
    show idx_main_v9 (ix2 t d) = ix2 t (0 : Fin 1) from by idx2, v8_at,
    show idx_main_v11 (idx_main_v12 (ix2 t d)) = ix1 d from by idx1]
  rfl

theorem v14_at (t : Fin 4096) (j : Fin 24576) :
    val_main_v14 x0 x1 x2 x6 (ix2 t j) = Q (cqArr x0 x1 x6) x2 t j := by
  rw [val_main_v14_apply, v13_eq]
  refine Finset.sum_congr rfl fun k _ => ?_
  rw [show lidx_main_v14 (ix2 t j) k = ix2 t k from by idx2, show ridx_main_v14 (ix2 t j) k = ix2 k j from by idx2]

theorem v15_at (t : Fin 4096) (h : Fin 128) (p : Fin 192) :
    val_main_v15 x0 x1 x2 x6 (ix3 t h p) = Q (cqArr x0 x1 x6) x2 t ⟨192 * h.val + p.val, by omega⟩ := by
  rw [val_main_v15_apply, show idx_main_v15 (ix3 t h p) = ix2 t (⟨192 * h.val + p.val, by omega⟩ : Fin 24576) from
    Shape.idx_ext₂ (by show ((t.val * 128 + h.val) * 192 + p.val) / 24576 = t.val; omega)
      (by show ((t.val * 128 + h.val) * 192 + p.val) % 24576 = 192 * h.val + p.val; omega), v14_at]

theorem v17_at (t : Fin 4096) (h : Fin 128) (r : Fin 64) :
    val_main_v17 x0 x1 x2 x6 (ix3 t h r) = Q (cqArr x0 x1 x6) x2 t ⟨192 * h.val + 128 + r.val, by omega⟩ := by
  rw [val_main_v17_apply, show idx_main_v17 (ix3 t h r) = ix3 t h (⟨128 + r.val, by omega⟩ : Fin 192) from by idx3, v15_at]
  exact congrArg (Q (cqArr x0 x1 x6) x2 t) (Fin.ext (by show 192 * h.val + (128 + r.val) = 192 * h.val + 128 + r.val; omega))

theorem v23_at (t : Fin 4096) (h : Fin 128) (r : Fin 64) : val_main_v23 x0 x1 x2 x6 (ix3 t h r) =
    if hr : r.val < 32 then -(Q (cqArr x0 x1 x6) x2 t ⟨192 * h.val + 128 + (r.val + 32), by omega⟩)
    else Q (cqArr x0 x1 x6) x2 t ⟨192 * h.val + 128 + (r.val - 32), by omega⟩ := by
  unfold val_main_v23
  refine (cat3_last _ _ _ t h r rfl).trans (dite_congr rfl (fun hr => ?_) fun hr => ?_)
  · rw [val_main_v22_apply, val_main_v21_apply,
      show idx_main_v21 (ix3 t h (⟨r.val, hr⟩ : Fin 32)) = ix3 t h (⟨32 + r.val, by omega⟩ : Fin 64) from by idx3, v17_at,
      Ideal.hostNegf_def, Ideal.negf_def]
    exact congrArg (fun e => -(Q (cqArr x0 x1 x6) x2 t e))
      (Fin.ext (by show 192 * h.val + 128 + (32 + r.val) = 192 * h.val + 128 + (r.val + 32); omega))
  · rw [val_main_v20_apply,
      show idx_main_v20 (ix3 t h (⟨r.val - 32, by omega⟩ : Fin 32)) = ix3 t h (⟨r.val - 32, by omega⟩ : Fin 64) from by idx3, v17_at]

theorem v28_at (t : Fin 4096) (h : Fin 128) (r : Fin 64) : val_main_v28 x0 x1 x2 x4 x5 x6 (ix3 t h r) =
    ropeAt (fun r => Q (cqArr x0 x1 x6) x2 t ⟨192 * h.val + 128 + r.val, by omega⟩) (fun r => x4 (ix2 t r)) (fun r => x5 (ix2 t r)) r := by
  rw [val_main_v28_apply, val_main_v25_apply, val_main_v27_apply, val_main_v24_apply, val_main_v26_apply, val_main_v18_apply,
    val_main_v19_apply, v17_at, show idx_main_v18 (idx_main_v24 (ix3 t h r)) = ix2 t r from by idx2,
    show idx_main_v19 (idx_main_v26 (ix3 t h r)) = ix2 t r from by idx2, Ideal.addf_def, Ideal.mulf_def, Ideal.mulf_def, v23_at]
  rfl

theorem v29_at (t : Fin 4096) (h : Fin 128) (p : Fin 192) : val_main_v29 x0 x1 x2 x4 x5 x6 (ix3 t h p) =
    if hp : p.val < 128 then Q (cqArr x0 x1 x6) x2 t ⟨192 * h.val + p.val, by omega⟩
    else ropeAt (fun r => Q (cqArr x0 x1 x6) x2 t ⟨192 * h.val + 128 + r.val, by omega⟩) (fun r => x4 (ix2 t r)) (fun r => x5 (ix2 t r))
      ⟨p.val - 128, by omega⟩ := by
  unfold val_main_v29
  exact (cat3_last _ _ _ t h p rfl).trans (dite_congr rfl (fun hp => by
    rw [val_main_v16_apply, show idx_main_v16 (ix3 t h (⟨p.val, hp⟩ : Fin 128)) = ix3 t h (⟨p.val, by omega⟩ : Fin 192) from by idx3, v15_at]) fun hp => v28_at t h _)

theorem v53_eq : val_main_v53 x0 x1 x2 x4 x5 x6 = queryArr (cqArr x0 x1 x6) x2 x4 x5 := by
  funext i
  obtain ⟨t, j, rfl⟩ : ∃ t j, i = ix2 t j := ⟨i 0, i 1, eq_ix2 i⟩
  rw [val_main_v53_apply, show idx_main_v53 (ix2 t j) = ix3 t (⟨j.val / 192, by omega⟩ : Fin 128) (⟨j.val % 192, by omega⟩ : Fin 192) from by
    funext a
    match a with
    | ⟨0, _⟩ => exact Fin.ext (by show (t.val * 24576 + j.val) / 24576 = t.val; omega)
    | ⟨1, _⟩ => exact Fin.ext (by show (t.val * 24576 + j.val) / 192 % 128 = j.val / 192; omega)
    | ⟨2, _⟩ => exact Fin.ext (by show (t.val * 24576 + j.val) % 192 = j.val % 192; omega), v29_at]
  exact dite_congr rfl (fun hp => congrArg (Q (cqArr x0 x1 x6) x2 t) (Fin.ext (by show 192 * (j.val / 192) + j.val % 192 = j.val; omega))) fun hp => rfl

theorem v30_at (t : Fin 4096) (e : Fin 576) : val_main_v30 x0 x3 (ix2 t e) = P3 x0 x3 t e := by
  rw [val_main_v30_apply]
  refine Finset.sum_congr rfl fun k _ => ?_
  rw [show lidx_main_v30 (ix2 t e) k = ix2 t k from by idx2, show ridx_main_v30 (ix2 t e) k = ix2 k e from by idx2]

theorem v31_at (t : Fin 4096) (f : Fin 512) : val_main_v31 x0 x3 (ix2 t f) = P3 x0 x3 t ⟨f.val, by omega⟩ := by
  rw [val_main_v31_apply, show idx_main_v31 (ix2 t f) = ix2 t (⟨f.val, by omega⟩ : Fin 576) from by idx2, v30_at]

theorem v33_at (t : Fin 4096) : val_main_v33 x0 x3 (ix1 t) =
    ∑ f : Fin 512, P3 x0 x3 t ⟨f.val, by omega⟩ * P3 x0 x3 t ⟨f.val, by omega⟩ := by
  rw [val_main_v33_apply, val_main_cst_2_apply, Ideal.ofBits_def, Ideal.ofBits_zero_f32, zero_add]
  refine Finset.sum_congr rfl fun f _ => ?_
  rw [show idx_main_v33 (ix1 t) f = ix2 t f from by idx2, val_main_v32_apply, v31_at, Ideal.mulf_def]

theorem v39_at (t : Fin 4096) (z : Fin 1) : val_main_v39 x0 x3 (ix2 t z) =
    Ideal.rsqrt (Ideal.div (∑ f : Fin 512, P3 x0 x3 t ⟨f.val, by omega⟩ * P3 x0 x3 t ⟨f.val, by omega⟩) c512 + eps) := by
  rw [val_main_v39_apply, val_main_v38_apply, val_main_v37_apply, val_main_cst_4_apply, val_main_v36_apply, val_main_v35_apply,
    val_main_cst_3_apply, val_main_v34_apply, show idx_main_v34 (ix2 t z) = ix1 t from by idx1, v33_at]
  rfl

theorem v44_at (t : Fin 4096) (f : Fin 512) : val_main_v44 x0 x3 x7 (ix2 t f) =
    (P3 x0 x3 t ⟨f.val, by omega⟩ * Ideal.rsqrt (Ideal.div (∑ f : Fin 512, P3 x0 x3 t ⟨f.val, by omega⟩ * P3 x0 x3 t ⟨f.val, by omega⟩) c512 + eps))
      * x7 (ix1 f) := by
  rw [val_main_v44_apply, val_main_v41_apply, val_main_v40_apply, val_main_v43_apply, val_main_v42_apply, v31_at,
    show idx_main_v40 (ix2 t f) = ix2 t (0 : Fin 1) from by idx2, v39_at,
    show idx_main_v42 (idx_main_v43 (ix2 t f)) = ix1 f from by idx1]
  rfl

theorem v45_at (t : Fin 4096) (r : Fin 64) : val_main_v45 x0 x3 (ix2 t r) = P3 x0 x3 t ⟨512 + r.val, by omega⟩ := by
  rw [val_main_v45_apply, show idx_main_v45 (ix2 t r) = ix2 t (⟨512 + r.val, by omega⟩ : Fin 576) from by idx2, v30_at]

theorem v49_at (t : Fin 4096) (r : Fin 64) : val_main_v49 x0 x3 (ix2 t r) =
    if h : r.val < 32 then -(P3 x0 x3 t ⟨512 + (r.val + 32), by omega⟩) else P3 x0 x3 t ⟨512 + (r.val - 32), by omega⟩ := by
  unfold val_main_v49
  by_cases h : r.val < 32
  · rw [dif_pos h]
    refine (concatenate_pair_apply_left (t := S4096x64) (s₁ := S4096x32) (s₂ := S4096x32) _ _ _ _ (ix2 t r) rfl (ix2 t (⟨r.val, h⟩ : Fin 32))
      (fun b => by match b with | ⟨0, _⟩ => rfl | ⟨1, _⟩ => rfl)).trans ?_
    rw [val_main_v48_apply, val_main_v47_apply,
      show idx_main_v47 (ix2 t (⟨r.val, h⟩ : Fin 32)) = ix2 t (⟨32 + r.val, by omega⟩ : Fin 64) from by idx2, v45_at,
      Ideal.hostNegf_def, Ideal.negf_def]
    exact congrArg (fun e => -(P3 x0 x3 t e)) (Fin.ext (by show 512 + (32 + r.val) = 512 + (r.val + 32); omega))
  · rw [dif_neg h]
    refine (concatenate_pair_apply_right (t := S4096x64) (s₁ := S4096x32) (s₂ := S4096x32) _ _ _ _ (ix2 t r) rfl rfl (ix2 t (⟨r.val - 32, by omega⟩ : Fin 32))
      (fun b hb => by match b, hb with | ⟨0, _⟩, _ => rfl | ⟨1, _⟩, hb => exact absurd rfl hb)
      (by show (r.val - 32) + 32 = r.val; omega)).trans ?_
    rw [val_main_v46_apply,
      show idx_main_v46 (ix2 t (⟨r.val - 32, by omega⟩ : Fin 32)) = ix2 t (⟨r.val - 32, by omega⟩ : Fin 64) from by idx2, v45_at]

theorem v52_at (t : Fin 4096) (r : Fin 64) : val_main_v52 x0 x3 x4 x5 (ix2 t r) =
    ropeAt (fun r => P3 x0 x3 t ⟨512 + r.val, by omega⟩) (fun r => x4 (ix2 t r)) (fun r => x5 (ix2 t r)) r := by
  rw [val_main_v52_apply, val_main_v50_apply, val_main_v51_apply, v45_at, Ideal.addf_def, Ideal.mulf_def, Ideal.mulf_def, v49_at]
  rfl

theorem row_agree {n0 m n : Nat} (t : Fin n0) (c : Fin m) (j : Fin n) (b : Fin 2) (hb : b ≠ 1) : ((ix2 t c) b).val = ((ix2 t j) b).val := by
  match b, hb with
  | ⟨0, _⟩, _ => rfl
  | ⟨1, _⟩, hb => exact absurd rfl hb

theorem ref_is_spec (x0 : (⟨S4096x7168, .f32⟩ : BufTy).Contents (Elt Ideal)) (x1 : (⟨S7168x1536, .f32⟩ : BufTy).Contents (Elt Ideal)) (x2 : (⟨S1536x24576, .f32⟩ : BufTy).Contents (Elt Ideal)) (x3 : (⟨S7168x576, .f32⟩ : BufTy).Contents (Elt Ideal)) (x4 x5 : (⟨S4096x64, .f32⟩ : BufTy).Contents (Elt Ideal)) (x6 : (⟨S1536, .f32⟩ : BufTy).Contents (Elt Ideal)) (x7 : (⟨S512, .f32⟩ : BufTy).Contents (Elt Ideal)) :
    Cert.ReferenceIdeal.Read.val_main_v54 (F := Ideal) x0 x1 x2 x3 x4 x5 x6 x7 = Cert.Spec.outArr x0 x1 x2 x3 x4 x5 x6 x7 := by
  funext i
  obtain ⟨t, j, rfl⟩ : ∃ t j, i = ix2 t j := ⟨i 0, i 1, eq_ix2 i⟩
  show _ = outAt x0 x1 x2 x3 x4 x5 x6 x7 t j
  unfold outAt val_main_v54
  by_cases hj : j.val < 24576
  · rw [dif_pos hj]
    refine (concatenate_apply_piece (t := S4096x25152) _ _ _ (ix2 t j) 0 (by show _ < 3; omega) S4096x24576 _ rfl rfl 0 rfl
      (ix2 t (⟨j.val, hj⟩ : Fin 24576)) (row_agree t (⟨j.val, hj⟩ : Fin 24576) j) (by show 0 + j.val = j.val; omega)).trans ?_
    rw [v53_eq]
    rfl
  · rw [dif_neg hj]
    unfold kvAt
    by_cases he : j.val - 24576 < 512
    · rw [dif_pos (show (⟨j.val - 24576, by omega⟩ : Fin 576).val < 512 from he)]
      exact (concatenate_apply_piece (t := S4096x25152) _ _ _ (ix2 t j) 1 (by show _ < 3; omega) S4096x512 _ rfl rfl 24576 rfl
        (ix2 t (⟨j.val - 24576, he⟩ : Fin 512)) (row_agree t (⟨j.val - 24576, he⟩ : Fin 512) j) (by show 24576 + (j.val - 24576) = j.val; omega)).trans (v44_at t _)
    · rw [dif_neg (show ¬ (⟨j.val - 24576, by omega⟩ : Fin 576).val < 512 from he)]
      exact (concatenate_apply_piece (t := S4096x25152) _ _ _ (ix2 t j) 2 (by show _ < 3; omega) S4096x64 _ rfl rfl 25088 rfl
        (ix2 t (⟨j.val - 25088, by omega⟩ : Fin 64)) (row_agree t (⟨j.val - 25088, by omega⟩ : Fin 64) j) (by show 25088 + (j.val - 25088) = j.val; omega)).trans
        ((v52_at t _).trans (congrArg (ropeAt _ _ _) (Fin.ext (by show j.val - 25088 = j.val - 24576 - 512; omega))))

end Cert.ReferenceIdeal.RefValue

end
-- ==== Proof.lean ====
import proofs.«125229_j77395310674148_1_alg».proof.Defs
import proofs.«125229_j77395310674148_1_alg».proof.Proof.Gen.Kernel
import proofs.«125229_j77395310674148_1_alg».proof.Proof.Gen.KernelIdeal
import proofs.«125229_j77395310674148_1_alg».proof.Proof.Gen.ReferenceIdeal
import proofs.«125229_j77395310674148_1_alg».proof.Proof.Gen.Pre_finite_inputs
import proofs.«125229_j77395310674148_1_alg».proof.Proof.K.Frame
import proofs.«125229_j77395310674148_1_alg».proof.Proof.KI.VMain
import proofs.«125229_j77395310674148_1_alg».proof.Proof.KI.V0
import proofs.«125229_j77395310674148_1_alg».proof.Proof.KI.V1
import proofs.«125229_j77395310674148_1_alg».proof.Proof.KI.V2
import proofs.«125229_j77395310674148_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

open Cert.KernelIdeal Cert.KernelIdeal.Gen Cert.KernelIdeal.Hand in
theorem algebraic :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), ?_, ?_⟩
  · refine (θ_run Cert.KernelIdeal.defs _ _).mono (fun r h c => ⟨?_, ?_⟩) (Cert.KernelIdeal.Hand.run_main m ρ)
    · exact (h c _ (mem_uc main_v6 (by decide))).trans (result_eq m ρ arr0_eq arr1_eq arr2_eq c)
    · exact ⟨(h c _ (mem_uc main_arg0 (by decide))).trans (W5_keep m ρ c _ (by decide)),
        (h c _ (mem_uc main_arg1 (by decide))).trans (W5_keep m ρ c _ (by decide)),
        (h c _ (mem_uc main_arg2 (by decide))).trans (W5_keep m ρ c _ (by decide)),
        (h c _ (mem_uc main_arg3 (by decide))).trans (W5_keep m ρ c _ (by decide)),
        (h c _ (mem_uc main_arg4 (by decide))).trans (W5_keep m ρ c _ (by decide)),
        (h c _ (mem_uc main_arg5 (by decide))).trans (W5_keep m ρ c _ (by decide)),
        (h c _ (mem_uc main_arg6 (by decide))).trans (W5_keep m ρ c _ (by decide)),
        (h c _ (mem_uc main_arg7 (by decide))).trans (W5_keep m ρ c _ (by decide))⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v54_eq, Cert.ReferenceIdeal.RefValue.ref_is_spec,
      (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
